-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x1 : Shape := ⟨2, ![4, 1]⟩
abbrev S4x1024x3 : Shape := ⟨3, ![4, 1024, 3]⟩
abbrev S4x512x3 : Shape := ⟨3, ![4, 512, 3]⟩
abbrev S4x1024 : Shape := ⟨2, ![4, 1024]⟩
abbrev S4x1024x512 : Shape := ⟨3, ![4, 1024, 512]⟩
abbrev S4x1024x1 : Shape := ⟨3, ![4, 1024, 1]⟩
abbrev S4x512x1 : Shape := ⟨3, ![4, 512, 1]⟩
abbrev S4x512 : Shape := ⟨2, ![4, 512]⟩
abbrev S4x1x512 : Shape := ⟨3, ![4, 1, 512]⟩
abbrev S4 : Shape := ⟨1, ![4]⟩
abbrev S_ : Shape := ⟨0, ![]⟩

abbrev nBuf : Space → Nat
  | .hbm => 10
  | .vmem => 14
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x1, .f32⟩
  | .hbm, ⟨3, _⟩ => ⟨S4x1, .f32⟩
  | .hbm, ⟨4, _⟩ => ⟨S4x1, .f32⟩
  | .hbm, ⟨5, _⟩ => ⟨S4, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S4x1024x3, .f32⟩
  | .local _ .vmem, ⟨1, _⟩ => ⟨S4x1024x3, .f32⟩
  | .local _ .vmem, ⟨2, _⟩ => ⟨S4x512x3, .f32⟩
  | .local _ .vmem, ⟨3, _⟩ => ⟨S4x512x3, .f32⟩
  | .local _ .vmem, ⟨4, _⟩ => ⟨S4x1, .f32⟩
  | .local _ .vmem, ⟨5, _⟩ => ⟨S4x1024, .f32⟩
  | .local _ .vmem, ⟨6, _⟩ => ⟨S4x1, .f32⟩
  | .local _ .vmem, ⟨7, _⟩ => ⟨S4x1024x3, .f32⟩
  | .local _ .vmem, ⟨8, _⟩ => ⟨S4x1024x3, .f32⟩
  | .local _ .vmem, ⟨9, _⟩ => ⟨S4x512x3, .f32⟩
  | .local _ .vmem, ⟨10, _⟩ => ⟨S4x512x3, .f32⟩
  | .local _ .vmem, ⟨11, _⟩ => ⟨S4x1, .f32⟩
  | .local _ .vmem, ⟨12, _⟩ => ⟨S4x1024, .f32⟩
  | .local _ .vmem, ⟨13, _⟩ => ⟨S4x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_scratch0 : Ref sig .tc := ⟨.vmem, 12, rfl⟩
abbrev cc1_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9

abbrev nD : Nat := 1
abbrev τ : Topo := Topo.v7x

variable {F : FTy → Type} [FloatOps F]

abbrev grid0 : Pipeline.Grid := ⟨2, ![8, 16], ![false, false]⟩

def k0_cond4 (i : grid0.Coords) : BitVec 1 :=
  let arg0 : BitVec 32 := BitVec.ofNat 32 (i 0).val
  let c7_i32 : BitVec 32 := 7#32
  let v53 : BitVec 1 := Scalar.cmpi .eq arg0 c7_i32
  let arg1 : BitVec 32 := BitVec.ofNat 32 (i 1).val
  let c15_i32_15 : BitVec 32 := 15#32
  let v54 : BitVec 1 := Scalar.cmpi .eq arg1 c15_i32_15
  let v55 : BitVec 1 := Scalar.andi v53 v54
  let v56 : BitVec 32 := Scalar.extui v55
  let c0_i32_16 : BitVec 32 := 0#32
  let v57 : BitVec 1 := Scalar.cmpi .ne v56 c0_i32_16
  v57

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨2, ![8, 16], ![false, false]⟩

def k1_cond4 (i : grid1.Coords) : BitVec 1 :=
  let arg0 : BitVec 32 := BitVec.ofNat 32 (i 0).val
  let c7_i32 : BitVec 32 := 7#32
  let v53 : BitVec 1 := Scalar.cmpi .eq arg0 c7_i32
  let arg1 : BitVec 32 := BitVec.ofNat 32 (i 1).val
  let c15_i32_15 : BitVec 32 := 15#32
  let v54 : BitVec 1 := Scalar.cmpi .eq arg1 c15_i32_15
  let v55 : BitVec 1 := Scalar.andi v53 v54
  let v56 : BitVec 32 := Scalar.extui v55
  let c0_i32_16 : BitVec 32 := 0#32
  let v57 : BitVec 1 := Scalar.cmpi .ne v56 c0_i32_16
  v57

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4x1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S4x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

class Facts₀ : Prop where
  inb_S4x1_S4x1_0_0 : ∀ a, (![0, 0] : Fin 2 → Nat) a + S4x1.size a ≤ S4x1.size a
  h_S4x1 : 0 < S4x1.numel
  shapeCasts_S4x1_S4x1 : S4x1.ShapeCasts S4x1
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  inb_S4x1024x3_S4x1024x3_0_0_0 : ∀ a, (![0, 0, 0] : Fin 3 → Nat) a + S4x1024x3.size a ≤ S4x1024x3.size a
  h_S4x1024x3 : 0 < S4x1024x3.numel
  inb_S4x512x3_S4x512x3_0_0_0 : ∀ a, (![0, 0, 0] : Fin 3 → Nat) a + S4x512x3.size a ≤ S4x512x3.size a
  h_S4x512x3 : 0 < S4x512x3.numel
  slices_S4x1024x3_o0_0_0_S4x1024x1 : S4x1024x3.Slices ![0, 0, 0] S4x1024x1
  shapeCasts_S4x1024x1_S4x1024 : S4x1024x1.ShapeCasts S4x1024
  slices_S4x512x3_o0_0_0_S4x512x1 : S4x512x3.Slices ![0, 0, 0] S4x512x1
  shapeCasts_S4x512x1_S4x512 : S4x512x1.ShapeCasts S4x512
  shapeCasts_S4x1024_S4x1024x1 : S4x1024.ShapeCasts S4x1024x1
  shapeCasts_S4x512_S4x1x512 : S4x512.ShapeCasts S4x1x512
  broadcasts_S4x1024x1_S4x1024x512 : S4x1024x1.Broadcasts S4x1024x512
  broadcasts_S4x1x512_S4x1024x512 : S4x1x512.Broadcasts S4x1024x512
  slices_S4x1024x3_o0_0_1_S4x1024x1 : S4x1024x3.Slices ![0, 0, 1] S4x1024x1
  slices_S4x512x3_o0_0_1_S4x512x1 : S4x512x3.Slices ![0, 0, 1] S4x512x1
  slices_S4x1024x3_o0_0_2_S4x1024x1 : S4x1024x3.Slices ![0, 0, 2] S4x1024x1
  slices_S4x512x3_o0_0_2_S4x512x1 : S4x512x3.Slices ![0, 0, 2] S4x512x1
  reduces_S4x1024x512_S4x1024 : S4x1024x512.Reduces [2] S4x1024
  reduces_S4x1024_S4 : S4x1024.Reduces [1] S4
  shapeCasts_S4_S4x1 : S4.ShapeCasts S4x1
  shapeCasts_S4x1_S4 : S4x1.ShapeCasts S4
  reducesTo_S4_S_d0 : S4.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x3.size a ≤ S4x8192x3.size a
  hwx0_0 : ∀ i : grid0.Coords, EltTy.bits .f32 = 32 ∨ (Rect.block (s := S4x8192x3) S4x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x3.size a ≤ S4x8192x3.size a
  hwx0_1 : ∀ i : grid0.Coords, EltTy.bits .f32 = 32 ∨ (Rect.block (s := S4x8192x3) S4x512x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1.size a ≤ S4x1.size a
  hwx0_2 : ∀ i : grid0.Coords, EltTy.bits .f32 = 32 ∨ (Rect.block (s := S4x1) S4x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x1024x3.size a ≤ S4x8192x3.size a
  hwx1_0 : ∀ i : grid1.Coords, EltTy.bits .f32 = 32 ∨ (Rect.block (s := S4x8192x3) S4x1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x3.size a ≤ S4x8192x3.size a
  hwx1_1 : ∀ i : grid1.Coords, EltTy.bits .f32 = 32 ∨ (Rect.block (s := S4x8192x3) S4x512x3.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x1.size a ≤ S4x1.size a
  hwx1_2 : ∀ i : grid1.Coords, EltTy.bits .f32 = 32 ∨ (Rect.block (s := S4x1) S4x1.size (cc1_transform_2 i) (hinb1_2 i)).WholeWords (EltTy.packing .f32)

variable [Facts₀]

abbrev win0_0 : Pipeline.Window sig grid0 :=
  Pipeline.Window.ofSpec (Memref.whole main_arg0) S4x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond4 i == 1#1) | ⟨_ + 3, h⟩ => absurd h (Nat.not_lt.2 (Nat.le_add_left _ _))

abbrev win1_0 : Pipeline.Window sig grid1 :=
  Pipeline.Window.ofSpec (Memref.whole main_arg1) S4x1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond4 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 40
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S4x8192, .f32⟩
  | .hbm, ⟨30, _⟩ => ⟨S_, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S4_d1 : S4x8192.ReducesTo [1] S4
  bcast_S_S4 : S_.BroadcastsInDim S4 (![] : Fin 0 → Fin S4.rank)
  reducesTo_S4x8192x8192_S4x8192_d1 : S4x8192x8192.ReducesTo [1] S4x8192
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.K.R0.Shared.lean ====
import proofs.«158586_j62723702391632_1_alg».proof.Proof.Gen.Kernel.Launch
import proofs.«158586_j62723702391632_1_alg».proof.Proof.Gen.Kernel.Skeleton
import proofs.«158586_j62723702391632_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

abbrev cond0_1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_1 : ∀ t : Fin cfg0.N, cond0_1 (grid0.coords t) ↔ t.val % 128 = 0 :=
  (by decide +kernel : ∀ t : Fin grid0.N, cond0_1 (grid0.coords t) ↔ t.val % 128 = 0)

abbrev cond0_2 (i : grid0.Coords) : Prop :=
  (Scalar.cmpi .ne (Scalar.extui (Scalar.cmpi .eq (BitVec.ofNat 32 (i 1).val) 0#32)) 0#32) = 1#1
theorem hcond0_2 : ∀ t : Fin cfg0.N, cond0_2 (grid0.coords t) ↔ t.val % 16 = 0 :=
  (by decide +kernel : ∀ t : Fin grid0.N, cond0_2 (grid0.coords t) ↔ t.val % 16 = 0)

abbrev cond0_3 (i : grid0.Coords) : Prop :=
  (Scalar.cmpi .ne (Scalar.extui (Scalar.cmpi .eq (BitVec.ofNat 32 (i 1).val) 15#32)) 0#32) = 1#1
theorem hcond0_3 : ∀ t : Fin cfg0.N, cond0_3 (grid0.coords t) ↔ t.val % 16 = 15 :=
  (by decide +kernel : ∀ t : Fin grid0.N, cond0_3 (grid0.coords t) ↔ t.val % 16 = 15)

abbrev cond0_4 (i : grid0.Coords) : Prop := k0_cond4 i = 1#1
theorem hcond0_4 : ∀ t : Fin cfg0.N, cond0_4 (grid0.coords t) ↔ t.val % 128 = 127 :=
  (by decide +kernel : ∀ t : Fin grid0.N, cond0_4 (grid0.coords t) ↔ t.val % 128 = 127)

theorem himp0 : ∀ t : Fin cfg0.N, (cond0_1 (grid0.coords t) → cond0_2 (grid0.coords t)) ∧ (cond0_2 (grid0.coords t) → ¬cond0_3 (grid0.coords t))
    ∧ (cond0_4 (grid0.coords t) → cond0_3 (grid0.coords t)) := by decide +kernel

theorem liveAt0_0 : ∀ t : Fin cfg0.N, cfg0.idle 0 (grid0.coords t) = false := by decide +kernel
theorem liveAt0_1 : ∀ t : Fin cfg0.N, cfg0.idle 1 (grid0.coords t) = false := by decide +kernel

theorem idleAt0_2 : ∀ t : Fin cfg0.N, ¬cond0_4 (grid0.coords t) → cfg0.idle 2 (grid0.coords t) = true := by decide +kernel
theorem noFlush0_2 : ∀ t : Fin cfg0.N, ¬cond0_4 (grid0.coords t) → (cfg0.win 2).flush t = false := by decide +kernel

theorem liveAt0_2 : ∀ t : Fin cfg0.N, cond0_4 (grid0.coords t) → cfg0.idle 2 (grid0.coords t) = false := by decide +kernel

abbrev ms0_0 (t : Fin cfg0.N) : Memref sig .tc .vmem S4x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1 .f32 := win0_2.stage (cfg0.slots t 2)
abbrev hs0_2 (t : Fin cfg0.N) : (ms0_2 t).IsWhole := hstage0_2 ((cfg0.slots t 2).cast nbuf0_2)

abbrev scM0_0 : Memref sig .tc .vmem S4x1024 .f32 := Memref.whole cc0_scratch0
abbrev scM0_1 : Memref sig .tc .vmem S4x1 .f32 := Memref.whole cc0_scratch1
abbrev VS0_0 : View sig .tc .vmem S4x1024 .f32 := scM0_0.view
abbrev VS0_1 : View sig .tc .vmem S4x1 .f32 := scM0_1.view
abbrev VO0_2 : View sig .tc .vmem S4x1 .f32 := (Memref.whole cc0_stg2_0 : Memref sig .tc .vmem S4x1 .f32).view

end Cert.Kernel.Fr

end
-- ==== Proof.K.R0.Step.lean ====
import proofs.«158586_j62723702391632_1_alg».proof.Proof.K.R0.Shared
import Idealize.ShloMosaic.Lib.Pipeline.Value

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → Nat) = fun _ => 0 := by funext a; fin_cases a <;> rfl
theorem hz3 : (![0, 0, 0] : Fin 3 → Nat) = fun _ => 0 := by funext a; fin_cases a <;> rfl

/-- The row minima after one grid point: this tile's minima taken into +inf at a query tile's first key tile, else into the old value. -/
def stepM (i : grid0.Coords) (x0 : Vec F S4x1024x3 .f32) (x1 : Vec F S4x512x3 .f32) (xs0 : Vec F S4x1024 .f32) : Vec F S4x1024 .f32 :=
  k0_pay1 (k0_pay6 x0 x1) (if cond0_2 i then k0_pay5 else xs0)

/-- The running total after one grid point: zero at the first point, the old total plus the summed row minima at a query tile's last key tile, else unchanged. -/
def stepT (i : grid0.Coords) (x0 : Vec F S4x1024x3 .f32) (x1 : Vec F S4x512x3 .f32) (xs0 : Vec F S4x1024 .f32) (xs1 : Vec F S4x1 .f32) : Vec F S4x1 .f32 :=
  if cond0_1 i then k0_pay4 else if cond0_3 i then k0_pay2 xs1 (stepM i x0 x1 xs0) else xs1

/-- The output block after one grid point: the total times 2^-13 at the last point, else untouched. -/
def stepO (i : grid0.Coords) (x0 : Vec F S4x1024x3 .f32) (x1 : Vec F S4x512x3 .f32) (xi2 : Vec F S4x1 .f32) (xs0 : Vec F S4x1024 .f32) (xs1 : Vec F S4x1 .f32) : Vec F S4x1 .f32 :=
  if cond0_4 i then k0_pay3 (stepT i x0 x1 xs0 xs1) else xi2

set_option maxHeartbeats 4000000 in
/-- One run of the body at any grid point: of the sixteen truth assignments of the four branch conditions the grid admits five, and in each the three buffers end at `stepO`, `stepM`, `stepT`. -/
theorem step0 (c : Dev nD) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1 .f32) (harg4 : arg4.IsWhole) (arg5 : Memref sig .tc .vmem S4x1024 .f32) (harg5 : arg5.IsWhole) (arg6 : Memref sig .tc .vmem S4x1 .f32) (harg6 : arg6.IsWhole)
    (h12 : cond0_1 i → cond0_2 i) (h23 : cond0_2 i → ¬cond0_3 i) (h43 : cond0_4 i → cond0_3 i)
    (x0 : Vec F S4x1024x3 .f32) (x1 : Vec F S4x512x3 .f32) (xi2 : Vec F S4x1 .f32) (xs0 : Vec F S4x1024 .f32) (xs1 : Vec F S4x1 .f32)
    (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
        ∗ (iprop(owns (c : Thread nD τ) arg2 fullShare x0 ∗ owns (c : Thread nD τ) arg3 fullShare x1 ∗ owns (c : Thread nD τ) arg4 fullShare (stepO i x0 x1 xi2 xs0 xs1)
            ∗ owns (c : Thread nD τ) arg5 fullShare (stepM i x0 x1 xs0) ∗ owns (c : Thread nD τ) arg6 fullShare (stepT i x0 x1 xs0 xs1)) -∗ K ⟨⟩))
      ⊢ wp frame (wpE (defs₀ (F := F)) Variants.none c none) E (cc0_kernel i arg2 harg2 arg3 harg3 arg4 harg4 arg5 harg5 arg6 harg6) K := by
  unfold stepO stepT stepM
  by_cases h1 : cond0_1 i <;> by_cases h2 : cond0_2 i <;> by_cases h3 : cond0_3 i <;> by_cases h4 : cond0_4 i <;>
    first
    | exact absurd (h12 h1) h2
    | exact absurd h3 (h23 h2)
    | exact absurd (h43 h4) h3
    | skip
  all_goals
    first | have e1 := eq_false h1 | have e1 := eq_true h1
    first | have e2 := eq_false h2 | have e2 := eq_true h2
    first | have e3 := eq_false h3 | have e3 := eq_true h3
    first | have e4 := eq_false h4 | have e4 := eq_true h4
    simp only [e1, e2, e3, e4, if_true, if_false]
    simp only [cc0_kernel_eq_skeleton]; unfold cc0_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    iexists _; isplitr; swap; iexact H2; ipureintro; rotate_left
    isplitl [HS0]
    iexists _; isplitr; swap; iexact HS0; ipureintro; rotate_left
    iexists _; isplitr; swap; iexact HS1; ipureintro
    all_goals
      first
      | (simp only [harg4.read_unread, harg5.read_unread, harg6.read_unread]; done)
      | refine (View.read_writes_eq_canon _ _ _ ?_).trans ?_
        · exact View.cover_of_tiledL _ (Shape.size _) (by sl_kernel_rfl)
        sl_unfold_words
        first
        | rw [View.canon_unit_zero hz2]
        | rw [View.canon_cons_unit_zero (S := S4x1) hz2]
        | rw [View.canon_cons_unit_zero (S := S4x1024) hz2]
        try simp only [View.readAt_eq_ld, harg2.read_unread, harg3.read_unread, harg4.read_unread, harg5.read_unread, harg6.read_unread,
      View.readCov_unit_zero (S := S4x1024) _ hz2, View.readCov_unit_zero (S := S4x1) _ hz2,
      View.ld_unit_zero (S := S4x1024x3) hz3, View.ld_unit_zero (S := S4x512x3) hz3, View.ld_unit_zero (S := S4x1024) hz2, View.ld_unit_zero (S := S4x1) hz2]

end Cert.Kernel.Fr

end
-- ==== Proof.K.R0.PhiA.lean ====
import proofs.«158586_j62723702391632_1_alg».proof.Proof.K.R0.Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

end Cert.Kernel.Fr

end
-- ==== Proof.K.R0.Acc.lean ====
import proofs.«158586_j62723702391632_1_alg».proof.Proof.K.R0.Step

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (q : (n : ℕ) → n < cfg0.N → Vec F S4x1024x3 .f32) (k : (n : ℕ) → n < cfg0.N → Vec F S4x512x3 .f32)

/-- The row minima after point n of any sequence of query and key blocks, by recursion on n. -/
def accM : (n : ℕ) → n < cfg0.N → Vec F S4x1024 .f32
  | 0, hn => k0_pay1 (k0_pay6 (q 0 hn) (k 0 hn)) (k0_pay5 (F := F))
  | n + 1, hn => k0_pay1 (k0_pay6 (q (n + 1) hn) (k (n + 1) hn))
      (if (n + 1) % 16 = 0 then (k0_pay5 (F := F)) else accM n (Nat.lt_of_succ_lt hn))

/-- The running total after point n. -/
def accT : (n : ℕ) → n < cfg0.N → Vec F S4x1 .f32
  | 0, _ => (k0_pay4 (F := F))
  | n + 1, hn => if (n + 1) % 16 = 15 then k0_pay2 (accT n (Nat.lt_of_succ_lt hn)) (accM q k (n + 1) hn) else accT n (Nat.lt_of_succ_lt hn)

def accO (n : ℕ) (hn : n < cfg0.N) : Vec F S4x1 .f32 := k0_pay3 (accT q k n hn)

theorem accM_zero (hn : 0 < cfg0.N) : accM q k 0 hn = k0_pay1 (k0_pay6 (q 0 hn) (k 0 hn)) (k0_pay5 (F := F)) := rfl
theorem accM_reset (n : ℕ) (hn : n < cfg0.N) (h : n % 16 = 0) :
    accM q k n hn = k0_pay1 (k0_pay6 (q n hn) (k n hn)) (k0_pay5 (F := F)) := by
  cases n with
  | zero => rfl
  | succ n => rw [accM, if_pos h]
theorem accM_step (n : ℕ) (hn : n + 1 < cfg0.N) (h : ¬(n + 1) % 16 = 0) :
    accM q k (n + 1) hn = k0_pay1 (k0_pay6 (q (n + 1) hn) (k (n + 1) hn)) (accM q k n (Nat.lt_of_succ_lt hn)) := by
  rw [accM, if_neg h]
theorem accT_zero (hn : 0 < cfg0.N) : accT q k 0 hn = (k0_pay4 (F := F)) := rfl
theorem accT_sum (n : ℕ) (hn : n + 1 < cfg0.N) (h : (n + 1) % 16 = 15) :
    accT q k (n + 1) hn = k0_pay2 (accT q k n (Nat.lt_of_succ_lt hn)) (accM q k (n + 1) hn) := by
  rw [accT, if_pos h]
theorem accT_keep (n : ℕ) (hn : n + 1 < cfg0.N) (h : ¬(n + 1) % 16 = 15) :
    accT q k (n + 1) hn = accT q k n (Nat.lt_of_succ_lt hn) := by
  rw [accT, if_neg h]

/-- One step from the value after point t - 1 is the recursion's value after point t, because the branch conditions at t are t mod 16 = 0, t mod 16 = 15, t = 0 and t = 127. -/
theorem stepM_eq (t : Fin cfg0.N) (xs0 : Vec F S4x1024 .f32)
    (hxs0 : t.val ≠ 0 → xs0 = accM q k (t.val - 1) (Nat.lt_of_le_of_lt (Nat.sub_le _ _) t.isLt)) :
    stepM (grid0.coords t) (q t.val t.isLt) (k t.val t.isLt) xs0 = accM q k t.val t.isLt := by
  obtain ⟨n, hn⟩ := t
  unfold stepM
  by_cases h : n % 16 = 0
  · rw [if_pos ((hcond0_2 ⟨n, hn⟩).mpr h), accM_reset q k n hn h]
  · rw [if_neg (fun hc => h ((hcond0_2 ⟨n, hn⟩).mp hc))]
    cases n with
    | zero => exact absurd (Nat.zero_mod _) h
    | succ n => rw [accM_step q k n hn h, hxs0 (Nat.succ_ne_zero n)]; rfl

theorem stepT_eq (t : Fin cfg0.N) (xs0 : Vec F S4x1024 .f32) (xs1 : Vec F S4x1 .f32)
    (hxs0 : t.val ≠ 0 → xs0 = accM q k (t.val - 1) (Nat.lt_of_le_of_lt (Nat.sub_le _ _) t.isLt))
    (hxs1 : t.val ≠ 0 → xs1 = accT q k (t.val - 1) (Nat.lt_of_le_of_lt (Nat.sub_le _ _) t.isLt)) :
    stepT (grid0.coords t) (q t.val t.isLt) (k t.val t.isLt) xs0 xs1 = accT q k t.val t.isLt := by
  have hM := stepM_eq q k t xs0 hxs0
  obtain ⟨n, hn⟩ := t
  have hN : n < 128 := lt_of_lt_of_eq hn N_0
  unfold stepT
  cases n with
  | zero => rw [if_pos ((hcond0_1 ⟨0, hn⟩).mpr rfl)]; rfl
  | succ n =>
    rw [if_neg (fun hc => by have h' : (n + 1) % 128 = 0 := (hcond0_1 ⟨n + 1, hn⟩).mp hc; omega), hM, hxs1 (Nat.succ_ne_zero n)]
    by_cases h3 : (n + 1) % 16 = 15
    · rw [if_pos ((hcond0_3 ⟨n + 1, hn⟩).mpr h3), accT_sum q k n hn h3]; rfl
    · rw [if_neg (fun hc => h3 ((hcond0_3 ⟨n + 1, hn⟩).mp hc)), accT_keep q k n hn h3]; rfl

end

section
variable (V : (c : Dev nD) → (b : Ref sig .tc) → Buf (Elt F) ((c : Thread nD τ).loc b))

abbrev qblk0 (c : Dev nD) (t : Fin cfg0.N) : Vec F S4x1024x3 .f32 := iblk0 V c 0 t
abbrev kblk0 (c : Dev nD) (t : Fin cfg0.N) : Vec F S4x512x3 .f32 := iblk0 V c 1 t
abbrev qs0 (c : Dev nD) : (n : ℕ) → n < cfg0.N → Vec F S4x1024x3 .f32 := fun n hn => qblk0 V c ⟨n, hn⟩
abbrev ks0 (c : Dev nD) : (n : ℕ) → n < cfg0.N → Vec F S4x512x3 .f32 := fun n hn => kblk0 V c ⟨n, hn⟩
abbrev accM0 (c : Dev nD) := accM (qs0 V c) (ks0 V c)
abbrev accT0 (c : Dev nD) := accT (qs0 V c) (ks0 V c)
abbrev accO0 (c : Dev nD) := accO (qs0 V c) (ks0 V c)

end

end Cert.Kernel.Fr

end
-- ==== Proof.K.R0.Body.lean ====
import proofs.«158586_j62723702391632_1_alg».proof.Proof.K.R0.Step
import proofs.«158586_j62723702391632_1_alg».proof.Proof.K.R0.PhiA
import proofs.«158586_j62723702391632_1_alg».proof.Proof.K.R0.Acc

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def PhiS0 (c : Dev nD) : (n : ℕ) → n ≤ cfg0.N → sProp 𝕄
  | 0, _ => Pipeline.ΦA spec0 c
  | n + 1, hn => iprop(iprop(owns (c : Thread nD τ) scM0_0 fullShare (accM0 V c n hn) ∗ owns (c : Thread nD τ) scM0_1 fullShare (accT0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (accM0 V c n hn) ∗ owns (c : Thread nD τ) scM0_1 fullShare (accT0 V c n hn) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (accM0 V c (n - 1) (Nat.lt_of_lt_of_le (Nat.sub_lt (Nat.pos_of_ne_zero hz) Nat.one_pos) h)) ∗ owns (c : Thread nD τ) scM0_1 fullShare (accT0 V c (n - 1) (Nat.lt_of_lt_of_le (Nat.sub_lt (Nat.pos_of_ne_zero hz) Nat.one_pos) h)) ∗ others0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accO0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accO0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem stepM0_eq (c : Dev nD) (t : Fin cfg0.N) (xs0 : Vec F S4x1024 .f32)
    (hxs0 : t.val ≠ 0 → xs0 = accM0 V c (t.val - 1) (Nat.lt_of_le_of_lt (Nat.sub_le _ _) t.isLt)) :
    stepM (grid0.coords t) (qblk0 V c t) (kblk0 V c t) xs0 = accM0 V c t.val t.isLt :=
  stepM_eq (qs0 V c) (ks0 V c) t xs0 hxs0

theorem stepT0_eq (c : Dev nD) (t : Fin cfg0.N) (xs0 : Vec F S4x1024 .f32) (xs1 : Vec F S4x1 .f32)
    (hxs0 : t.val ≠ 0 → xs0 = accM0 V c (t.val - 1) (Nat.lt_of_le_of_lt (Nat.sub_le _ _) t.isLt))
    (hxs1 : t.val ≠ 0 → xs1 = accT0 V c (t.val - 1) (Nat.lt_of_le_of_lt (Nat.sub_le _ _) t.isLt)) :
    stepT (grid0.coords t) (qblk0 V c t) (kblk0 V c t) xs0 xs1 = accT0 V c t.val t.isLt :=
  stepT_eq (qs0 V c) (ks0 V c) t xs0 xs1 hxs0 hxs1

/-- The body obligation at point t from scratch contents xs0, xs1 that are the recursion's values after t - 1 (any contents when t = 0). -/
theorem core0 (c : Dev nD) (t : Fin cfg0.N) (xs0 : Vec F S4x1024 .f32) (xs1 : Vec F S4x1 .f32)
    (hxs0 : t.val ≠ 0 → xs0 = accM0 V c (t.val - 1) (Nat.lt_of_le_of_lt (Nat.sub_le _ _) t.isLt))
    (hxs1 : t.val ≠ 0 → xs1 = accT0 V c (t.val - 1) (Nat.lt_of_le_of_lt (Nat.sub_le _ _) t.isLt)) :
    iprop(iprop(iprop(owns (c : Thread nD τ) scM0_0 fullShare xs0 ∗ owns (c : Thread nD τ) scM0_1 fullShare xs1 ∗ others0 c) ∗ (∃ r, prngReg c r))
        ∗ (dat0 V c).owesAt () t.castSucc
        ∗ (∃ d, owns (c : Thread nD τ) (ms0_0 t) fullShare ((dat0 V c).before 0 t d))
        ∗ (∃ d, owns (c : Thread nD τ) (ms0_1 t) fullShare ((dat0 V c).before 1 t d))
        ∗ (∃ d, owns (c : Thread nD τ) (ms0_2 t) fullShare ((dat0 V c).before 2 t d)))
      ⊢ wp frame (wpE (defs₀ (F := F)) Variants.none c none) Set.univ (bodyAt0 t) (fun _ => bodyPost0 V c t) := by
  have hO : ∀ d, owns (c : Thread nD τ) (ms0_2 t) fullShare (stepO (grid0.coords t) (qblk0 V c t) (kblk0 V c t) ((dat0 V c).before 2 t d) xs0 xs1) ⊢ (dat0 V c).leavesExact 2 t := by
    intro d
    unfold stepO
    by_cases h4 : cond0_4 (grid0.coords t)
    · rw [if_pos h4, stepT0_eq V c t xs0 xs1 hxs0 hxs1,
        show (dat0 V c).leavesExact 2 t = owns (c : Thread nD τ) (ms0_2 t) fullShare ((dat0 V c).after 2 t) from by
          unfold Dat.leavesExact; rw [liveAt0_2 t h4], after0_2]
      exact BI.Entails.refl _
    · rw [if_neg h4, Dat.leavesExact_idle (dat0 V c) 2 t (idleAt0_2 t h4) (noFlush0_2 t h4)]
      iintro H; iexists _; iexact H
  unfold bodyPost0 bodyAt0
  simp only [before0_0, before0_1]
  rw [show (dat0 V c).owesAt () t.succ = (dat0 V c).owesAt () t.castSucc from rfl,
    show (dat0 V c).Φ t.succ = PhiS0 V c (t.val + 1) t.isLt from rfl, PhiS0_succ,
    show (dat0 V c).leavesExact 0 t = owns (c : Thread nD τ) (ms0_0 t) fullShare ((dat0 V c).after 0 t) from by
      unfold Dat.leavesExact; rw [liveAt0_0 t], after0_0,
    show (dat0 V c).leavesExact 1 t = owns (c : Thread nD τ) (ms0_1 t) fullShare ((dat0 V c).after 1 t) from by
      unfold Dat.leavesExact; rw [liveAt0_1 t], after0_1,
    ← stepT0_eq V c t xs0 xs1 hxs0 hxs1, ← stepM0_eq V c t xs0 hxs0]
  iintro ⟨⟨⟨HS0, HS1, Hoth⟩, Hg⟩, Ho, ⟨%d0, H0⟩, ⟨%d1, H1⟩, ⟨%d2, H2⟩⟩
  iapply (step0 c (grid0.coords t) (ms0_0 t) (hs0_0 t) (ms0_1 t) (hs0_1 t) (ms0_2 t) (hs0_2 t) scM0_0 (Memref.isWhole_whole _) scM0_1 (Memref.isWhole_whole _)
    (himp0 t).1 (himp0 t).2.1 (himp0 t).2.2 (qblk0 V c t) (kblk0 V c t) _ xs0 xs1 Set.univ _)
  isplitl [H0]; · iexact H0
  isplitl [H1]; · iexact H1
  isplitl [H2]; · iexact H2
  isplitl [HS0]; · iexact HS0
  isplitl [HS1]; · iexact HS1
  iintro ⟨H0, H1, H2, HS0, HS1⟩
  isplitl [HS0 HS1 Hoth Hg]
  · isplitr [Hg]
    · isplitl [HS0]; · iexact HS0
      isplitl [HS1]; · iexact HS1
      iexact Hoth
    iexact Hg
  isplitl [Ho]; · iexact Ho
  isplitl [H0]; · iexact H0
  isplitl [H1]; · iexact H1
  iapply (hO _); iexact H2

theorem sound_body0 (c : Dev nD) (t : Fin cfg0.N) :
    bodyPre0 V c t ⊢ wp frame (wpE (defs₀ (F := F)) Variants.none c none) Set.univ (bodyAt0 t) (fun _ => bodyPost0 V c t) := by
  unfold bodyPre0
  rw [PhiS0_castSucc V c t]
  by_cases hz : t.val = 0
  · rw [PhiS0_zero V c _ _ hz, PhiA0_eq]
    iintro ⟨⟨⟨⟨%xs0, HS0⟩, ⟨%xs1, HS1⟩, Hoth⟩, Hg⟩, Hrest⟩
    iapply (core0 V c t xs0 xs1 (fun h => absurd hz h) (fun h => absurd hz h))
    isplitr [Hrest]
    · isplitr [Hg]
      · isplitl [HS0]; · iexact HS0
        isplitl [HS1]; · iexact HS1
        iexact Hoth
      iexact Hg
    iexact Hrest
  · rw [PhiS0_pos V c _ _ hz]
    exact core0 V c t _ _ (fun _ => rfl) (fun _ => rfl)

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  have hne : (Fin.last cfg0.N).val ≠ 0 := by rw [Fin.val_last]; have : cfg0.N = 128 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS0, HS1, Hoth⟩, Hg⟩
  isplitr [Hg]
  · isplitl [HS0]; · iexists _; iexact HS0
    isplitl [HS1]; · iexists _; iexact HS1
    iexact Hoth
  iexact Hg

end

end Cert.Kernel.Fr

end
-- ==== Proof.K.R1.Shared.lean ====
import proofs.«158586_j62723702391632_1_alg».proof.Proof.K.R0.Shared
import proofs.«158586_j62723702391632_1_alg».proof.Proof.Gen.Kernel.Skeleton
import proofs.«158586_j62723702391632_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

theorem liveAt1_0 : ∀ t : Fin cfg1.N, cfg1.idle 0 (grid1.coords t) = false := by decide +kernel
theorem liveAt1_1 : ∀ t : Fin cfg1.N, cfg1.idle 1 (grid1.coords t) = false := by decide +kernel

theorem idleAt1_2 : ∀ t : Fin cfg1.N, ¬cond0_4 (grid1.coords t) → cfg1.idle 2 (grid1.coords t) = true := by decide +kernel
theorem noFlush1_2 : ∀ t : Fin cfg1.N, ¬cond0_4 (grid1.coords t) → (cfg1.win 2).flush t = false := by decide +kernel

theorem liveAt1_2 : ∀ t : Fin cfg1.N, cond0_4 (grid1.coords t) → cfg1.idle 2 (grid1.coords t) = false := by decide +kernel

abbrev ms1_0 (t : Fin cfg1.N) : Memref sig .tc .vmem S4x1024x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x512x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x1 .f32 := win1_2.stage (cfg1.slots t 2)
abbrev hs1_2 (t : Fin cfg1.N) : (ms1_2 t).IsWhole := hstage1_2 ((cfg1.slots t 2).cast nbuf1_2)

abbrev scM1_0 : Memref sig .tc .vmem S4x1024 .f32 := Memref.whole cc1_scratch0
abbrev scM1_1 : Memref sig .tc .vmem S4x1 .f32 := Memref.whole cc1_scratch1
abbrev VS1_0 : View sig .tc .vmem S4x1024 .f32 := scM1_0.view
abbrev VS1_1 : View sig .tc .vmem S4x1 .f32 := scM1_1.view
abbrev VO1_2 : View sig .tc .vmem S4x1 .f32 := (Memref.whole cc1_stg2_0 : Memref sig .tc .vmem S4x1 .f32).view

end Cert.Kernel.Fr

end
-- ==== Proof.K.R1.PhiA.lean ====
import proofs.«158586_j62723702391632_1_alg».proof.Proof.K.R1.Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ others1 c) ∗ (∃ r, prngReg c r)) := by
  unfold Pipeline.ΦA others1; rw [scopedRest1_eq]; simp only [scM1_0, scM1_1, owns_whole]
  refine BI.Entails.antisymm ?_ ?_
  · show (_ : sProp 𝕄) ⊢ _
    iintro ⟨⟨H1, H2, H3, H4, H5, H6, H7, HS0, HS1⟩, Hg⟩
    isplitr [Hg]
    · isplitl [HS0]; · iexact HS0
      isplitl [HS1]; · iexact HS1
      isplitl [H1]; · iexact H1
      isplitl [H2]; · iexact H2
      isplitl [H3]; · iexact H3
      isplitl [H4]; · iexact H4
      isplitl [H5]; · iexact H5
      isplitl [H6]; · iexact H6
      iexact H7
    iexact Hg
  · show (_ : sProp 𝕄) ⊢ _
    iintro ⟨⟨HS0, HS1, H1, H2, H3, H4, H5, H6, H7⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iexact HS1
    iexact Hg

end Cert.Kernel.Fr

end
-- ==== Proof.K.R1.Acc.lean ====
import proofs.«158586_j62723702391632_1_alg».proof.Proof.K.R1.Shared
import proofs.«158586_j62723702391632_1_alg».proof.Proof.K.R0.Acc

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

abbrev qblk1 (c : Dev nD) (t : Fin cfg1.N) : Vec F S4x1024x3 .f32 := iblk1 V c 0 t
abbrev kblk1 (c : Dev nD) (t : Fin cfg1.N) : Vec F S4x512x3 .f32 := iblk1 V c 1 t
abbrev qs1 (c : Dev nD) : (n : ℕ) → n < cfg0.N → Vec F S4x1024x3 .f32 := fun n hn => qblk1 V c ⟨n, hn⟩
abbrev ks1 (c : Dev nD) : (n : ℕ) → n < cfg0.N → Vec F S4x512x3 .f32 := fun n hn => kblk1 V c ⟨n, hn⟩
abbrev accM1 (c : Dev nD) := accM (qs1 V c) (ks1 V c)
abbrev accT1 (c : Dev nD) := accT (qs1 V c) (ks1 V c)
abbrev accO1 (c : Dev nD) := accO (qs1 V c) (ks1 V c)

end

end Cert.Kernel.Fr

end
-- ==== Proof.K.R1.Body.lean ====
import proofs.«158586_j62723702391632_1_alg».proof.Proof.K.R0.Step
import proofs.«158586_j62723702391632_1_alg».proof.Proof.K.R1.PhiA
import proofs.«158586_j62723702391632_1_alg».proof.Proof.K.R1.Acc

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def PhiS1 (c : Dev nD) : (n : ℕ) → n ≤ cfg1.N → sProp 𝕄
  | 0, _ => Pipeline.ΦA spec1 c
  | n + 1, hn => iprop(iprop(owns (c : Thread nD τ) scM1_0 fullShare (accM1 V c n hn) ∗ owns (c : Thread nD τ) scM1_1 fullShare (accT1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare (accM1 V c n hn) ∗ owns (c : Thread nD τ) scM1_1 fullShare (accT1 V c n hn) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare (accM1 V c (n - 1) (Nat.lt_of_lt_of_le (Nat.sub_lt (Nat.pos_of_ne_zero hz) Nat.one_pos) h)) ∗ owns (c : Thread nD τ) scM1_1 fullShare (accT1 V c (n - 1) (Nat.lt_of_lt_of_le (Nat.sub_lt (Nat.pos_of_ne_zero hz) Nat.one_pos) h)) ∗ others1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accO1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accO1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem stepM1_eq (c : Dev nD) (t : Fin cfg1.N) (xs0 : Vec F S4x1024 .f32)
    (hxs0 : t.val ≠ 0 → xs0 = accM1 V c (t.val - 1) (Nat.lt_of_le_of_lt (Nat.sub_le _ _) t.isLt)) :
    stepM (grid1.coords t) (qblk1 V c t) (kblk1 V c t) xs0 = accM1 V c t.val t.isLt :=
  stepM_eq (qs1 V c) (ks1 V c) t xs0 hxs0

theorem stepT1_eq (c : Dev nD) (t : Fin cfg1.N) (xs0 : Vec F S4x1024 .f32) (xs1 : Vec F S4x1 .f32)
    (hxs0 : t.val ≠ 0 → xs0 = accM1 V c (t.val - 1) (Nat.lt_of_le_of_lt (Nat.sub_le _ _) t.isLt))
    (hxs1 : t.val ≠ 0 → xs1 = accT1 V c (t.val - 1) (Nat.lt_of_le_of_lt (Nat.sub_le _ _) t.isLt)) :
    stepT (grid1.coords t) (qblk1 V c t) (kblk1 V c t) xs0 xs1 = accT1 V c t.val t.isLt :=
  stepT_eq (qs1 V c) (ks1 V c) t xs0 xs1 hxs0 hxs1

/-- The body obligation at point t from scratch contents xs0, xs1 that are the recursion's values after t - 1 (any contents when t = 0). -/
theorem core1 (c : Dev nD) (t : Fin cfg1.N) (xs0 : Vec F S4x1024 .f32) (xs1 : Vec F S4x1 .f32)
    (hxs0 : t.val ≠ 0 → xs0 = accM1 V c (t.val - 1) (Nat.lt_of_le_of_lt (Nat.sub_le _ _) t.isLt))
    (hxs1 : t.val ≠ 0 → xs1 = accT1 V c (t.val - 1) (Nat.lt_of_le_of_lt (Nat.sub_le _ _) t.isLt)) :
    iprop(iprop(iprop(owns (c : Thread nD τ) scM1_0 fullShare xs0 ∗ owns (c : Thread nD τ) scM1_1 fullShare xs1 ∗ others1 c) ∗ (∃ r, prngReg c r))
        ∗ (dat1 V c).owesAt () t.castSucc
        ∗ (∃ d, owns (c : Thread nD τ) (ms1_0 t) fullShare ((dat1 V c).before 0 t d))
        ∗ (∃ d, owns (c : Thread nD τ) (ms1_1 t) fullShare ((dat1 V c).before 1 t d))
        ∗ (∃ d, owns (c : Thread nD τ) (ms1_2 t) fullShare ((dat1 V c).before 2 t d)))
      ⊢ wp frame (wpE (defs₀ (F := F)) Variants.none c none) Set.univ (bodyAt1 t) (fun _ => bodyPost1 V c t) := by
  have hO : ∀ d, owns (c : Thread nD τ) (ms1_2 t) fullShare (stepO (grid1.coords t) (qblk1 V c t) (kblk1 V c t) ((dat1 V c).before 2 t d) xs0 xs1) ⊢ (dat1 V c).leavesExact 2 t := by
    intro d
    unfold stepO
    by_cases h4 : cond0_4 (grid1.coords t)
    · rw [if_pos h4, stepT1_eq V c t xs0 xs1 hxs0 hxs1,
        show (dat1 V c).leavesExact 2 t = owns (c : Thread nD τ) (ms1_2 t) fullShare ((dat1 V c).after 2 t) from by
          unfold Dat.leavesExact; rw [liveAt1_2 t h4], after1_2]
      exact BI.Entails.refl _
    · rw [if_neg h4, Dat.leavesExact_idle (dat1 V c) 2 t (idleAt1_2 t h4) (noFlush1_2 t h4)]
      iintro H; iexists _; iexact H
  unfold bodyPost1 bodyAt1
  rw [show cc1_kernel (F := F) = cc0_kernel from rfl]
  simp only [before1_0, before1_1]
  rw [show (dat1 V c).owesAt () t.succ = (dat1 V c).owesAt () t.castSucc from rfl,
    show (dat1 V c).Φ t.succ = PhiS1 V c (t.val + 1) t.isLt from rfl, PhiS1_succ,
    show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1,
    ← stepT1_eq V c t xs0 xs1 hxs0 hxs1, ← stepM1_eq V c t xs0 hxs0]
  iintro ⟨⟨⟨HS0, HS1, Hoth⟩, Hg⟩, Ho, ⟨%d0, H0⟩, ⟨%d1, H1⟩, ⟨%d2, H2⟩⟩
  iapply (step0 c (grid1.coords t) (ms1_0 t) (hs1_0 t) (ms1_1 t) (hs1_1 t) (ms1_2 t) (hs1_2 t) scM1_0 (Memref.isWhole_whole _) scM1_1 (Memref.isWhole_whole _)
    (himp0 t).1 (himp0 t).2.1 (himp0 t).2.2 (qblk1 V c t) (kblk1 V c t) _ xs0 xs1 Set.univ _)
  isplitl [H0]; · iexact H0
  isplitl [H1]; · iexact H1
  isplitl [H2]; · iexact H2
  isplitl [HS0]; · iexact HS0
  isplitl [HS1]; · iexact HS1
  iintro ⟨H0, H1, H2, HS0, HS1⟩
  isplitl [HS0 HS1 Hoth Hg]
  · isplitr [Hg]
    · isplitl [HS0]; · iexact HS0
      isplitl [HS1]; · iexact HS1
      iexact Hoth
    iexact Hg
  isplitl [Ho]; · iexact Ho
  isplitl [H0]; · iexact H0
  isplitl [H1]; · iexact H1
  iapply (hO _); iexact H2

theorem sound_body1 (c : Dev nD) (t : Fin cfg1.N) :
    bodyPre1 V c t ⊢ wp frame (wpE (defs₀ (F := F)) Variants.none c none) Set.univ (bodyAt1 t) (fun _ => bodyPost1 V c t) := by
  unfold bodyPre1
  rw [PhiS1_castSucc V c t]
  by_cases hz : t.val = 0
  · rw [PhiS1_zero V c _ _ hz, PhiA1_eq]
    iintro ⟨⟨⟨⟨%xs0, HS0⟩, ⟨%xs1, HS1⟩, Hoth⟩, Hg⟩, Hrest⟩
    iapply (core1 V c t xs0 xs1 (fun h => absurd hz h) (fun h => absurd hz h))
    isplitr [Hrest]
    · isplitr [Hg]
      · isplitl [HS0]; · iexact HS0
        isplitl [HS1]; · iexact HS1
        iexact Hoth
      iexact Hg
    iexact Hrest
  · rw [PhiS1_pos V c _ _ hz]
    exact core1 V c t _ _ (fun _ => rfl) (fun _ => rfl)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS0, HS1, Hoth⟩, Hg⟩
  isplitr [Hg]
  · isplitl [HS0]; · iexists _; iexact HS0
    isplitl [HS1]; · iexists _; iexact HS1
    iexact Hoth
  iexact Hg

end

end Cert.Kernel.Fr

end
-- ==== Proof.K.Run.lean ====
import proofs.«158586_j62723702391632_1_alg».proof.Proof.K.R0.Body
import proofs.«158586_j62723702391632_1_alg».proof.Proof.K.R1.Body
import Idealize.ShloMosaic.Lib.Pipeline.RegionsLoop
import Idealize.ShloMosaic.Lib.Pipeline.FrameSuffix

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)
abbrev V0 : (c : Dev nD) → (b : Ref sig .tc) → Buf (Elt F) ((c : Thread nD τ).loc b) := fun c b => W0 m c b

def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb

abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb

abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

abbrev W3 : Dev nD → Valuation τ sig (Elt F) := fun c => StableHlo.after hostOps2 (W2 m c)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps2_noalloc : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V0 m) c).Φ 0 from rfl]
    refine BI.Entails.trans ?_ (hin0 (V0 m) c)
    unfold Pipeline.ΦA
    show (_ : sProp 𝕄) ⊢ _
    iintro ⟨Hp, -, Hr⟩
    isplitl [Hr]; · iexact Hr
    iexact Hp
  hout c := by
    rw [Pipeline.ownSems0_none, show (pdats m 0 c).Φ (Fin.last _) = (dat0 (V0 m) c).Φ (Fin.last cfg0.N) from rfl]
    refine BI.Entails.trans (hout0 (V0 m) c) ?_
    unfold Pipeline.ΦA
    show (_ : sProp 𝕄) ⊢ _
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V1 m) c).Φ 0 from rfl]
    refine BI.Entails.trans ?_ (hin1 (V1 m) c)
    unfold Pipeline.ΦA
    show (_ : sProp 𝕄) ⊢ _
    iintro ⟨Hp, -, Hr⟩
    isplitl [Hr]; · iexact Hr
    iexact Hp
  hout c := by
    rw [Pipeline.ownSems0_none, show (pdats m 1 c).Φ (Fin.last _) = (dat1 (V1 m) c).Φ (Fin.last cfg1.N) from rfl]
    refine BI.Entails.trans (hout1 (V1 m) c) ?_
    unfold Pipeline.ΦA
    show (_ : sProp 𝕄) ⊢ _
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .region (reg0 m), .region (reg1 m), .host (hseg hostOps2 hostOps2_sub hostOps2_noalloc (W2 m)) ]
theorem main_run (c : Dev nD) : main (F := F) c = Pipeline.Seg.run (segs m) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show (iprop(StableHlo.held (c : Thread nD τ) (Pipeline.ucRefs τ sig) (W3 m c) ∗ R c) : sProp 𝕄) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := (W2_arr m c 1).trans (((dat1 (V1 m) c).arrAt_in 1 rfl _).trans (A_eq1 (V1 m) c 1))
    _ = W0 m c (Proc.devRef .tc main_arg0) := (W1_arr m c 0).trans (((dat0 (V0 m) c).arrAt_in 0 rfl _).trans (A_eq0 (V0 m) c 0))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := (W2_arr m c 0).trans (((dat1 (V1 m) c).arrAt_in 0 rfl _).trans (A_eq1 (V1 m) c 0))
    _ = W0 m c (Proc.devRef .tc main_arg1) := (W1_arr m c 1).trans (((dat0 (V0 m) c).arrAt_in 1 rfl _).trans (A_eq0 (V0 m) c 1))
    _ = m ((c : Thread nD τ).loc main_arg1) := rfl

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m c),
     (h c _ (mem_uc main_arg1 (by decide))).trans (W3_main_arg1 m c)⟩) (run_all m ρ)

end Cert.Kernel.Fr

end
-- ==== Proof.KI.R0.Shared.lean ====
import proofs.«158586_j62723702391632_1_alg».proof.Proof.Gen.KernelIdeal.Launch
import proofs.«158586_j62723702391632_1_alg».proof.Proof.Gen.KernelIdeal.Skeleton
import proofs.«158586_j62723702391632_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

abbrev cond0_1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_1 : ∀ t : Fin cfg0.N, cond0_1 (grid0.coords t) ↔ t.val % 128 = 0 :=
  (by decide +kernel : ∀ t : Fin grid0.N, cond0_1 (grid0.coords t) ↔ t.val % 128 = 0)

abbrev cond0_2 (i : grid0.Coords) : Prop :=
  (Scalar.cmpi .ne (Scalar.extui (Scalar.cmpi .eq (BitVec.ofNat 32 (i 1).val) 0#32)) 0#32) = 1#1
theorem hcond0_2 : ∀ t : Fin cfg0.N, cond0_2 (grid0.coords t) ↔ t.val % 16 = 0 :=
  (by decide +kernel : ∀ t : Fin grid0.N, cond0_2 (grid0.coords t) ↔ t.val % 16 = 0)

abbrev cond0_3 (i : grid0.Coords) : Prop :=
  (Scalar.cmpi .ne (Scalar.extui (Scalar.cmpi .eq (BitVec.ofNat 32 (i 1).val) 15#32)) 0#32) = 1#1
theorem hcond0_3 : ∀ t : Fin cfg0.N, cond0_3 (grid0.coords t) ↔ t.val % 16 = 15 :=
  (by decide +kernel : ∀ t : Fin grid0.N, cond0_3 (grid0.coords t) ↔ t.val % 16 = 15)

abbrev cond0_4 (i : grid0.Coords) : Prop := k0_cond4 i = 1#1
theorem hcond0_4 : ∀ t : Fin cfg0.N, cond0_4 (grid0.coords t) ↔ t.val % 128 = 127 :=
  (by decide +kernel : ∀ t : Fin grid0.N, cond0_4 (grid0.coords t) ↔ t.val % 128 = 127)

theorem himp0 : ∀ t : Fin cfg0.N, (cond0_1 (grid0.coords t) → cond0_2 (grid0.coords t)) ∧ (cond0_2 (grid0.coords t) → ¬cond0_3 (grid0.coords t))
    ∧ (cond0_4 (grid0.coords t) → cond0_3 (grid0.coords t)) := by decide +kernel

theorem liveAt0_0 : ∀ t : Fin cfg0.N, cfg0.idle 0 (grid0.coords t) = false := by decide +kernel
theorem liveAt0_1 : ∀ t : Fin cfg0.N, cfg0.idle 1 (grid0.coords t) = false := by decide +kernel

theorem idleAt0_2 : ∀ t : Fin cfg0.N, ¬cond0_4 (grid0.coords t) → cfg0.idle 2 (grid0.coords t) = true := by decide +kernel
theorem noFlush0_2 : ∀ t : Fin cfg0.N, ¬cond0_4 (grid0.coords t) → (cfg0.win 2).flush t = false := by decide +kernel

theorem liveAt0_2 : ∀ t : Fin cfg0.N, cond0_4 (grid0.coords t) → cfg0.idle 2 (grid0.coords t) = false := by decide +kernel

abbrev ms0_0 (t : Fin cfg0.N) : Memref sig .tc .vmem S4x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1 .f32 := win0_2.stage (cfg0.slots t 2)
abbrev hs0_2 (t : Fin cfg0.N) : (ms0_2 t).IsWhole := hstage0_2 ((cfg0.slots t 2).cast nbuf0_2)

abbrev scM0_0 : Memref sig .tc .vmem S4x1024 .f32 := Memref.whole cc0_scratch0
abbrev scM0_1 : Memref sig .tc .vmem S4x1 .f32 := Memref.whole cc0_scratch1
abbrev VS0_0 : View sig .tc .vmem S4x1024 .f32 := scM0_0.view
abbrev VS0_1 : View sig .tc .vmem S4x1 .f32 := scM0_1.view
abbrev VO0_2 : View sig .tc .vmem S4x1 .f32 := (Memref.whole cc0_stg2_0 : Memref sig .tc .vmem S4x1 .f32).view

end Cert.KernelIdeal.Fr

end
-- ==== Proof.KI.R0.Step.lean ====
import proofs.«158586_j62723702391632_1_alg».proof.Proof.KI.R0.Shared
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := by funext a; fin_cases a <;> rfl
theorem hz3 : (![0, 0, 0] : Fin 3 → Nat) = fun _ => 0 := by funext a; fin_cases a <;> rfl

/-- The row minima after one grid point: this tile's minima taken into +inf at a query tile's first key tile, else into the old value. -/
def stepM (i : grid0.Coords) (x0 : Vec F S4x1024x3 .f32) (x1 : Vec F S4x512x3 .f32) (xs0 : Vec F S4x1024 .f32) : Vec F S4x1024 .f32 :=
  k0_pay1 (k0_pay6 x0 x1) (if cond0_2 i then k0_pay5 else xs0)

/-- The running total after one grid point: zero at the first point, the old total plus the summed row minima at a query tile's last key tile, else unchanged. -/
def stepT (i : grid0.Coords) (x0 : Vec F S4x1024x3 .f32) (x1 : Vec F S4x512x3 .f32) (xs0 : Vec F S4x1024 .f32) (xs1 : Vec F S4x1 .f32) : Vec F S4x1 .f32 :=
  if cond0_1 i then k0_pay4 else if cond0_3 i then k0_pay2 xs1 (stepM i x0 x1 xs0) else xs1

/-- The output block after one grid point: the total times 2^-13 at the last point, else untouched. -/
def stepO (i : grid0.Coords) (x0 : Vec F S4x1024x3 .f32) (x1 : Vec F S4x512x3 .f32) (xi2 : Vec F S4x1 .f32) (xs0 : Vec F S4x1024 .f32) (xs1 : Vec F S4x1 .f32) : Vec F S4x1 .f32 :=
  if cond0_4 i then k0_pay3 (stepT i x0 x1 xs0 xs1) else xi2

set_option maxHeartbeats 4000000 in
/-- One run of the body at any grid point: of the sixteen truth assignments of the four branch conditions the grid admits five, and in each the three buffers end at `stepO`, `stepM`, `stepT`. -/
theorem step0 (c : Dev nD) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1 .f32) (harg4 : arg4.IsWhole) (arg5 : Memref sig .tc .vmem S4x1024 .f32) (harg5 : arg5.IsWhole) (arg6 : Memref sig .tc .vmem S4x1 .f32) (harg6 : arg6.IsWhole)
    (h12 : cond0_1 i → cond0_2 i) (h23 : cond0_2 i → ¬cond0_3 i) (h43 : cond0_4 i → cond0_3 i)
    (x0 : Vec F S4x1024x3 .f32) (x1 : Vec F S4x512x3 .f32) (xi2 : Vec F S4x1 .f32) (xs0 : Vec F S4x1024 .f32) (xs1 : Vec F S4x1 .f32)
    (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
        ∗ (iprop(owns (c : Thread nD τ) arg2 fullShare x0 ∗ owns (c : Thread nD τ) arg3 fullShare x1 ∗ owns (c : Thread nD τ) arg4 fullShare (stepO i x0 x1 xi2 xs0 xs1)
            ∗ owns (c : Thread nD τ) arg5 fullShare (stepM i x0 x1 xs0) ∗ owns (c : Thread nD τ) arg6 fullShare (stepT i x0 x1 xs0 xs1)) -∗ K ⟨⟩))
      ⊢ wp frame (wpE (defs₀ (F := F)) Variants.none c none) E (cc0_kernel i arg2 harg2 arg3 harg3 arg4 harg4 arg5 harg5 arg6 harg6) K := by
  unfold stepO stepT stepM
  by_cases h1 : cond0_1 i <;> by_cases h2 : cond0_2 i <;> by_cases h3 : cond0_3 i <;> by_cases h4 : cond0_4 i <;>
    first
    | exact absurd (h12 h1) h2
    | exact absurd h3 (h23 h2)
    | exact absurd (h43 h4) h3
    | skip
  all_goals
    first | have e1 := eq_false h1 | have e1 := eq_true h1
    first | have e2 := eq_false h2 | have e2 := eq_true h2
    first | have e3 := eq_false h3 | have e3 := eq_true h3
    first | have e4 := eq_false h4 | have e4 := eq_true h4
    simp only [e1, e2, e3, e4, if_true, if_false]
    simp only [cc0_kernel_eq_skeleton]; unfold cc0_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    iexists _; isplitr; swap; iexact H2; ipureintro; rotate_left
    isplitl [HS0]
    iexists _; isplitr; swap; iexact HS0; ipureintro; rotate_left
    iexists _; isplitr; swap; iexact HS1; ipureintro
    all_goals
      first
      | (simp only [harg4.read_unread, harg5.read_unread, harg6.read_unread]; done)
      | refine (View.read_writes_eq_canon _ _ _ ?_).trans ?_
        · exact View.cover_of_tiledL _ (Shape.size _) (by sl_kernel_rfl)
        sl_unfold_words
        first
        | rw [View.canon_unit_zero hz2]
        | rw [View.canon_cons_unit_zero (S := S4x1) hz2]
        | rw [View.canon_cons_unit_zero (S := S4x1024) hz2]
        try simp only [View.readAt_eq_ld, harg2.read_unread, harg3.read_unread, harg4.read_unread, harg5.read_unread, harg6.read_unread,
      View.readCov_unit_zero (S := S4x1024) _ hz2, View.readCov_unit_zero (S := S4x1) _ hz2,
      View.ld_unit_zero (S := S4x1024x3) hz3, View.ld_unit_zero (S := S4x512x3) hz3, View.ld_unit_zero (S := S4x1024) hz2, View.ld_unit_zero (S := S4x1) hz2]

end Cert.KernelIdeal.Fr

end
-- ==== Proof.KI.R0.PhiA.lean ====
import proofs.«158586_j62723702391632_1_alg».proof.Proof.KI.R0.Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

end Cert.KernelIdeal.Fr

end
-- ==== Proof.KI.R0.Acc.lean ====
import proofs.«158586_j62723702391632_1_alg».proof.Proof.KI.R0.Step

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (q : (n : ℕ) → n < cfg0.N → Vec F S4x1024x3 .f32) (k : (n : ℕ) → n < cfg0.N → Vec F S4x512x3 .f32)

/-- The row minima after point n of any sequence of query and key blocks, by recursion on n. -/
def accM : (n : ℕ) → n < cfg0.N → Vec F S4x1024 .f32
  | 0, hn => k0_pay1 (k0_pay6 (q 0 hn) (k 0 hn)) (k0_pay5 (F := F))
  | n + 1, hn => k0_pay1 (k0_pay6 (q (n + 1) hn) (k (n + 1) hn))
      (if (n + 1) % 16 = 0 then (k0_pay5 (F := F)) else accM n (Nat.lt_of_succ_lt hn))

/-- The running total after point n. -/
def accT : (n : ℕ) → n < cfg0.N → Vec F S4x1 .f32
  | 0, _ => (k0_pay4 (F := F))
  | n + 1, hn => if (n + 1) % 16 = 15 then k0_pay2 (accT n (Nat.lt_of_succ_lt hn)) (accM q k (n + 1) hn) else accT n (Nat.lt_of_succ_lt hn)

def accO (n : ℕ) (hn : n < cfg0.N) : Vec F S4x1 .f32 := k0_pay3 (accT q k n hn)

theorem accM_zero (hn : 0 < cfg0.N) : accM q k 0 hn = k0_pay1 (k0_pay6 (q 0 hn) (k 0 hn)) (k0_pay5 (F := F)) := rfl
theorem accM_reset (n : ℕ) (hn : n < cfg0.N) (h : n % 16 = 0) :
    accM q k n hn = k0_pay1 (k0_pay6 (q n hn) (k n hn)) (k0_pay5 (F := F)) := by
  cases n with
  | zero => rfl
  | succ n => rw [accM, if_pos h]
theorem accM_step (n : ℕ) (hn : n + 1 < cfg0.N) (h : ¬(n + 1) % 16 = 0) :
    accM q k (n + 1) hn = k0_pay1 (k0_pay6 (q (n + 1) hn) (k (n + 1) hn)) (accM q k n (Nat.lt_of_succ_lt hn)) := by
  rw [accM, if_neg h]
theorem accT_zero (hn : 0 < cfg0.N) : accT q k 0 hn = (k0_pay4 (F := F)) := rfl
theorem accT_sum (n : ℕ) (hn : n + 1 < cfg0.N) (h : (n + 1) % 16 = 15) :
    accT q k (n + 1) hn = k0_pay2 (accT q k n (Nat.lt_of_succ_lt hn)) (accM q k (n + 1) hn) := by
  rw [accT, if_pos h]
theorem accT_keep (n : ℕ) (hn : n + 1 < cfg0.N) (h : ¬(n + 1) % 16 = 15) :
    accT q k (n + 1) hn = accT q k n (Nat.lt_of_succ_lt hn) := by
  rw [accT, if_neg h]

/-- One step from the value after point t - 1 is the recursion's value after point t, because the branch conditions at t are t mod 16 = 0, t mod 16 = 15, t = 0 and t = 127. -/
theorem stepM_eq (t : Fin cfg0.N) (xs0 : Vec F S4x1024 .f32)
    (hxs0 : t.val ≠ 0 → xs0 = accM q k (t.val - 1) (Nat.lt_of_le_of_lt (Nat.sub_le _ _) t.isLt)) :
    stepM (grid0.coords t) (q t.val t.isLt) (k t.val t.isLt) xs0 = accM q k t.val t.isLt := by
  obtain ⟨n, hn⟩ := t
  unfold stepM
  by_cases h : n % 16 = 0
  · rw [if_pos ((hcond0_2 ⟨n, hn⟩).mpr h), accM_reset q k n hn h]
  · rw [if_neg (fun hc => h ((hcond0_2 ⟨n, hn⟩).mp hc))]
    cases n with
    | zero => exact absurd (Nat.zero_mod _) h
    | succ n => rw [accM_step q k n hn h, hxs0 (Nat.succ_ne_zero n)]; rfl

theorem stepT_eq (t : Fin cfg0.N) (xs0 : Vec F S4x1024 .f32) (xs1 : Vec F S4x1 .f32)
    (hxs0 : t.val ≠ 0 → xs0 = accM q k (t.val - 1) (Nat.lt_of_le_of_lt (Nat.sub_le _ _) t.isLt))
    (hxs1 : t.val ≠ 0 → xs1 = accT q k (t.val - 1) (Nat.lt_of_le_of_lt (Nat.sub_le _ _) t.isLt)) :
    stepT (grid0.coords t) (q t.val t.isLt) (k t.val t.isLt) xs0 xs1 = accT q k t.val t.isLt := by
  have hM := stepM_eq q k t xs0 hxs0
  obtain ⟨n, hn⟩ := t
  have hN : n < 128 := lt_of_lt_of_eq hn N_0
  unfold stepT
  cases n with
  | zero => rw [if_pos ((hcond0_1 ⟨0, hn⟩).mpr rfl)]; rfl
  | succ n =>
    rw [if_neg (fun hc => by have h' : (n + 1) % 128 = 0 := (hcond0_1 ⟨n + 1, hn⟩).mp hc; omega), hM, hxs1 (Nat.succ_ne_zero n)]
    by_cases h3 : (n + 1) % 16 = 15
    · rw [if_pos ((hcond0_3 ⟨n + 1, hn⟩).mpr h3), accT_sum q k n hn h3]; rfl
    · rw [if_neg (fun hc => h3 ((hcond0_3 ⟨n + 1, hn⟩).mp hc)), accT_keep q k n hn h3]; rfl

end

section
variable (V : (c : Dev nD) → (b : Ref sig .tc) → Buf (Elt F) ((c : Thread nD τ).loc b))

abbrev qblk0 (c : Dev nD) (t : Fin cfg0.N) : Vec F S4x1024x3 .f32 := iblk0 V c 0 t
abbrev kblk0 (c : Dev nD) (t : Fin cfg0.N) : Vec F S4x512x3 .f32 := iblk0 V c 1 t
abbrev qs0 (c : Dev nD) : (n : ℕ) → n < cfg0.N → Vec F S4x1024x3 .f32 := fun n hn => qblk0 V c ⟨n, hn⟩
abbrev ks0 (c : Dev nD) : (n : ℕ) → n < cfg0.N → Vec F S4x512x3 .f32 := fun n hn => kblk0 V c ⟨n, hn⟩
abbrev accM0 (c : Dev nD) := accM (qs0 V c) (ks0 V c)
abbrev accT0 (c : Dev nD) := accT (qs0 V c) (ks0 V c)
abbrev accO0 (c : Dev nD) := accO (qs0 V c) (ks0 V c)

end

end Cert.KernelIdeal.Fr

end
-- ==== Proof.KI.R0.Body.lean ====
import proofs.«158586_j62723702391632_1_alg».proof.Proof.KI.R0.Step
import proofs.«158586_j62723702391632_1_alg».proof.Proof.KI.R0.PhiA
import proofs.«158586_j62723702391632_1_alg».proof.Proof.KI.R0.Acc

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def PhiS0 (c : Dev nD) : (n : ℕ) → n ≤ cfg0.N → sProp 𝕄
  | 0, _ => Pipeline.ΦA spec0 c
  | n + 1, hn => iprop(iprop(owns (c : Thread nD τ) scM0_0 fullShare (accM0 V c n hn) ∗ owns (c : Thread nD τ) scM0_1 fullShare (accT0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (accM0 V c n hn) ∗ owns (c : Thread nD τ) scM0_1 fullShare (accT0 V c n hn) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (accM0 V c (n - 1) (Nat.lt_of_lt_of_le (Nat.sub_lt (Nat.pos_of_ne_zero hz) Nat.one_pos) h)) ∗ owns (c : Thread nD τ) scM0_1 fullShare (accT0 V c (n - 1) (Nat.lt_of_lt_of_le (Nat.sub_lt (Nat.pos_of_ne_zero hz) Nat.one_pos) h)) ∗ others0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accO0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accO0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem stepM0_eq (c : Dev nD) (t : Fin cfg0.N) (xs0 : Vec F S4x1024 .f32)
    (hxs0 : t.val ≠ 0 → xs0 = accM0 V c (t.val - 1) (Nat.lt_of_le_of_lt (Nat.sub_le _ _) t.isLt)) :
    stepM (grid0.coords t) (qblk0 V c t) (kblk0 V c t) xs0 = accM0 V c t.val t.isLt :=
  stepM_eq (qs0 V c) (ks0 V c) t xs0 hxs0

theorem stepT0_eq (c : Dev nD) (t : Fin cfg0.N) (xs0 : Vec F S4x1024 .f32) (xs1 : Vec F S4x1 .f32)
    (hxs0 : t.val ≠ 0 → xs0 = accM0 V c (t.val - 1) (Nat.lt_of_le_of_lt (Nat.sub_le _ _) t.isLt))
    (hxs1 : t.val ≠ 0 → xs1 = accT0 V c (t.val - 1) (Nat.lt_of_le_of_lt (Nat.sub_le _ _) t.isLt)) :
    stepT (grid0.coords t) (qblk0 V c t) (kblk0 V c t) xs0 xs1 = accT0 V c t.val t.isLt :=
  stepT_eq (qs0 V c) (ks0 V c) t xs0 xs1 hxs0 hxs1

/-- The body obligation at point t from scratch contents xs0, xs1 that are the recursion's values after t - 1 (any contents when t = 0). -/
theorem core0 (c : Dev nD) (t : Fin cfg0.N) (xs0 : Vec F S4x1024 .f32) (xs1 : Vec F S4x1 .f32)
    (hxs0 : t.val ≠ 0 → xs0 = accM0 V c (t.val - 1) (Nat.lt_of_le_of_lt (Nat.sub_le _ _) t.isLt))
    (hxs1 : t.val ≠ 0 → xs1 = accT0 V c (t.val - 1) (Nat.lt_of_le_of_lt (Nat.sub_le _ _) t.isLt)) :
    iprop(iprop(iprop(owns (c : Thread nD τ) scM0_0 fullShare xs0 ∗ owns (c : Thread nD τ) scM0_1 fullShare xs1 ∗ others0 c) ∗ (∃ r, prngReg c r))
        ∗ (dat0 V c).owesAt () t.castSucc
        ∗ (∃ d, owns (c : Thread nD τ) (ms0_0 t) fullShare ((dat0 V c).before 0 t d))
        ∗ (∃ d, owns (c : Thread nD τ) (ms0_1 t) fullShare ((dat0 V c).before 1 t d))
        ∗ (∃ d, owns (c : Thread nD τ) (ms0_2 t) fullShare ((dat0 V c).before 2 t d)))
      ⊢ wp frame (wpE (defs₀ (F := F)) Variants.none c none) Set.univ (bodyAt0 t) (fun _ => bodyPost0 V c t) := by
  have hO : ∀ d, owns (c : Thread nD τ) (ms0_2 t) fullShare (stepO (grid0.coords t) (qblk0 V c t) (kblk0 V c t) ((dat0 V c).before 2 t d) xs0 xs1) ⊢ (dat0 V c).leavesExact 2 t := by
    intro d
    unfold stepO
    by_cases h4 : cond0_4 (grid0.coords t)
    · rw [if_pos h4, stepT0_eq V c t xs0 xs1 hxs0 hxs1,
        show (dat0 V c).leavesExact 2 t = owns (c : Thread nD τ) (ms0_2 t) fullShare ((dat0 V c).after 2 t) from by
          unfold Dat.leavesExact; rw [liveAt0_2 t h4], after0_2]
      exact BI.Entails.refl _
    · rw [if_neg h4, Dat.leavesExact_idle (dat0 V c) 2 t (idleAt0_2 t h4) (noFlush0_2 t h4)]
      iintro H; iexists _; iexact H
  unfold bodyPost0 bodyAt0
  simp only [before0_0, before0_1]
  rw [show (dat0 V c).owesAt () t.succ = (dat0 V c).owesAt () t.castSucc from rfl,
    show (dat0 V c).Φ t.succ = PhiS0 V c (t.val + 1) t.isLt from rfl, PhiS0_succ,
    show (dat0 V c).leavesExact 0 t = owns (c : Thread nD τ) (ms0_0 t) fullShare ((dat0 V c).after 0 t) from by
      unfold Dat.leavesExact; rw [liveAt0_0 t], after0_0,
    show (dat0 V c).leavesExact 1 t = owns (c : Thread nD τ) (ms0_1 t) fullShare ((dat0 V c).after 1 t) from by
      unfold Dat.leavesExact; rw [liveAt0_1 t], after0_1,
    ← stepT0_eq V c t xs0 xs1 hxs0 hxs1, ← stepM0_eq V c t xs0 hxs0]
  iintro ⟨⟨⟨HS0, HS1, Hoth⟩, Hg⟩, Ho, ⟨%d0, H0⟩, ⟨%d1, H1⟩, ⟨%d2, H2⟩⟩
  iapply (step0 c (grid0.coords t) (ms0_0 t) (hs0_0 t) (ms0_1 t) (hs0_1 t) (ms0_2 t) (hs0_2 t) scM0_0 (Memref.isWhole_whole _) scM0_1 (Memref.isWhole_whole _)
    (himp0 t).1 (himp0 t).2.1 (himp0 t).2.2 (qblk0 V c t) (kblk0 V c t) _ xs0 xs1 Set.univ _)
  isplitl [H0]; · iexact H0
  isplitl [H1]; · iexact H1
  isplitl [H2]; · iexact H2
  isplitl [HS0]; · iexact HS0
  isplitl [HS1]; · iexact HS1
  iintro ⟨H0, H1, H2, HS0, HS1⟩
  isplitl [HS0 HS1 Hoth Hg]
  · isplitr [Hg]
    · isplitl [HS0]; · iexact HS0
      isplitl [HS1]; · iexact HS1
      iexact Hoth
    iexact Hg
  isplitl [Ho]; · iexact Ho
  isplitl [H0]; · iexact H0
  isplitl [H1]; · iexact H1
  iapply (hO _); iexact H2

theorem sound_body0 (c : Dev nD) (t : Fin cfg0.N) :
    bodyPre0 V c t ⊢ wp frame (wpE (defs₀ (F := F)) Variants.none c none) Set.univ (bodyAt0 t) (fun _ => bodyPost0 V c t) := by
  unfold bodyPre0
  rw [PhiS0_castSucc V c t]
  by_cases hz : t.val = 0
  · rw [PhiS0_zero V c _ _ hz, PhiA0_eq]
    iintro ⟨⟨⟨⟨%xs0, HS0⟩, ⟨%xs1, HS1⟩, Hoth⟩, Hg⟩, Hrest⟩
    iapply (core0 V c t xs0 xs1 (fun h => absurd hz h) (fun h => absurd hz h))
    isplitr [Hrest]
    · isplitr [Hg]
      · isplitl [HS0]; · iexact HS0
        isplitl [HS1]; · iexact HS1
        iexact Hoth
      iexact Hg
    iexact Hrest
  · rw [PhiS0_pos V c _ _ hz]
    exact core0 V c t _ _ (fun _ => rfl) (fun _ => rfl)

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  have hne : (Fin.last cfg0.N).val ≠ 0 := by rw [Fin.val_last]; have : cfg0.N = 128 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS0, HS1, Hoth⟩, Hg⟩
  isplitr [Hg]
  · isplitl [HS0]; · iexists _; iexact HS0
    isplitl [HS1]; · iexists _; iexact HS1
    iexact Hoth
  iexact Hg

end

end Cert.KernelIdeal.Fr

end
-- ==== Proof.KI.R1.Shared.lean ====
import proofs.«158586_j62723702391632_1_alg».proof.Proof.KI.R0.Shared
import proofs.«158586_j62723702391632_1_alg».proof.Proof.Gen.KernelIdeal.Skeleton
import proofs.«158586_j62723702391632_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

theorem liveAt1_0 : ∀ t : Fin cfg1.N, cfg1.idle 0 (grid1.coords t) = false := by decide +kernel
theorem liveAt1_1 : ∀ t : Fin cfg1.N, cfg1.idle 1 (grid1.coords t) = false := by decide +kernel

theorem idleAt1_2 : ∀ t : Fin cfg1.N, ¬cond0_4 (grid1.coords t) → cfg1.idle 2 (grid1.coords t) = true := by decide +kernel
theorem noFlush1_2 : ∀ t : Fin cfg1.N, ¬cond0_4 (grid1.coords t) → (cfg1.win 2).flush t = false := by decide +kernel

theorem liveAt1_2 : ∀ t : Fin cfg1.N, cond0_4 (grid1.coords t) → cfg1.idle 2 (grid1.coords t) = false := by decide +kernel

abbrev ms1_0 (t : Fin cfg1.N) : Memref sig .tc .vmem S4x1024x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x512x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x1 .f32 := win1_2.stage (cfg1.slots t 2)
abbrev hs1_2 (t : Fin cfg1.N) : (ms1_2 t).IsWhole := hstage1_2 ((cfg1.slots t 2).cast nbuf1_2)

abbrev scM1_0 : Memref sig .tc .vmem S4x1024 .f32 := Memref.whole cc1_scratch0
abbrev scM1_1 : Memref sig .tc .vmem S4x1 .f32 := Memref.whole cc1_scratch1
abbrev VS1_0 : View sig .tc .vmem S4x1024 .f32 := scM1_0.view
abbrev VS1_1 : View sig .tc .vmem S4x1 .f32 := scM1_1.view
abbrev VO1_2 : View sig .tc .vmem S4x1 .f32 := (Memref.whole cc1_stg2_0 : Memref sig .tc .vmem S4x1 .f32).view

end Cert.KernelIdeal.Fr

end
-- ==== Proof.KI.R1.PhiA.lean ====
import proofs.«158586_j62723702391632_1_alg».proof.Proof.KI.R1.Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ others1 c) ∗ (∃ r, prngReg c r)) := by
  unfold Pipeline.ΦA others1; rw [scopedRest1_eq]; simp only [scM1_0, scM1_1, owns_whole]
  refine BI.Entails.antisymm ?_ ?_
  · show (_ : sProp 𝕄) ⊢ _
    iintro ⟨⟨H1, H2, H3, H4, H5, H6, H7, HS0, HS1⟩, Hg⟩
    isplitr [Hg]
    · isplitl [HS0]; · iexact HS0
      isplitl [HS1]; · iexact HS1
      isplitl [H1]; · iexact H1
      isplitl [H2]; · iexact H2
      isplitl [H3]; · iexact H3
      isplitl [H4]; · iexact H4
      isplitl [H5]; · iexact H5
      isplitl [H6]; · iexact H6
      iexact H7
    iexact Hg
  · show (_ : sProp 𝕄) ⊢ _
    iintro ⟨⟨HS0, HS1, H1, H2, H3, H4, H5, H6, H7⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iexact HS1
    iexact Hg

end Cert.KernelIdeal.Fr

end
-- ==== Proof.KI.R1.Acc.lean ====
import proofs.«158586_j62723702391632_1_alg».proof.Proof.KI.R1.Shared
import proofs.«158586_j62723702391632_1_alg».proof.Proof.KI.R0.Acc

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

abbrev qblk1 (c : Dev nD) (t : Fin cfg1.N) : Vec F S4x1024x3 .f32 := iblk1 V c 0 t
abbrev kblk1 (c : Dev nD) (t : Fin cfg1.N) : Vec F S4x512x3 .f32 := iblk1 V c 1 t
abbrev qs1 (c : Dev nD) : (n : ℕ) → n < cfg0.N → Vec F S4x1024x3 .f32 := fun n hn => qblk1 V c ⟨n, hn⟩
abbrev ks1 (c : Dev nD) : (n : ℕ) → n < cfg0.N → Vec F S4x512x3 .f32 := fun n hn => kblk1 V c ⟨n, hn⟩
abbrev accM1 (c : Dev nD) := accM (qs1 V c) (ks1 V c)
abbrev accT1 (c : Dev nD) := accT (qs1 V c) (ks1 V c)
abbrev accO1 (c : Dev nD) := accO (qs1 V c) (ks1 V c)

end

end Cert.KernelIdeal.Fr

end
-- ==== Proof.KI.R1.Body.lean ====
import proofs.«158586_j62723702391632_1_alg».proof.Proof.KI.R0.Step
import proofs.«158586_j62723702391632_1_alg».proof.Proof.KI.R1.PhiA
import proofs.«158586_j62723702391632_1_alg».proof.Proof.KI.R1.Acc

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def PhiS1 (c : Dev nD) : (n : ℕ) → n ≤ cfg1.N → sProp 𝕄
  | 0, _ => Pipeline.ΦA spec1 c
  | n + 1, hn => iprop(iprop(owns (c : Thread nD τ) scM1_0 fullShare (accM1 V c n hn) ∗ owns (c : Thread nD τ) scM1_1 fullShare (accT1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare (accM1 V c n hn) ∗ owns (c : Thread nD τ) scM1_1 fullShare (accT1 V c n hn) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare (accM1 V c (n - 1) (Nat.lt_of_lt_of_le (Nat.sub_lt (Nat.pos_of_ne_zero hz) Nat.one_pos) h)) ∗ owns (c : Thread nD τ) scM1_1 fullShare (accT1 V c (n - 1) (Nat.lt_of_lt_of_le (Nat.sub_lt (Nat.pos_of_ne_zero hz) Nat.one_pos) h)) ∗ others1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accO1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accO1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem stepM1_eq (c : Dev nD) (t : Fin cfg1.N) (xs0 : Vec F S4x1024 .f32)
    (hxs0 : t.val ≠ 0 → xs0 = accM1 V c (t.val - 1) (Nat.lt_of_le_of_lt (Nat.sub_le _ _) t.isLt)) :
    stepM (grid1.coords t) (qblk1 V c t) (kblk1 V c t) xs0 = accM1 V c t.val t.isLt :=
  stepM_eq (qs1 V c) (ks1 V c) t xs0 hxs0

theorem stepT1_eq (c : Dev nD) (t : Fin cfg1.N) (xs0 : Vec F S4x1024 .f32) (xs1 : Vec F S4x1 .f32)
    (hxs0 : t.val ≠ 0 → xs0 = accM1 V c (t.val - 1) (Nat.lt_of_le_of_lt (Nat.sub_le _ _) t.isLt))
    (hxs1 : t.val ≠ 0 → xs1 = accT1 V c (t.val - 1) (Nat.lt_of_le_of_lt (Nat.sub_le _ _) t.isLt)) :
    stepT (grid1.coords t) (qblk1 V c t) (kblk1 V c t) xs0 xs1 = accT1 V c t.val t.isLt :=
  stepT_eq (qs1 V c) (ks1 V c) t xs0 xs1 hxs0 hxs1

/-- The body obligation at point t from scratch contents xs0, xs1 that are the recursion's values after t - 1 (any contents when t = 0). -/
theorem core1 (c : Dev nD) (t : Fin cfg1.N) (xs0 : Vec F S4x1024 .f32) (xs1 : Vec F S4x1 .f32)
    (hxs0 : t.val ≠ 0 → xs0 = accM1 V c (t.val - 1) (Nat.lt_of_le_of_lt (Nat.sub_le _ _) t.isLt))
    (hxs1 : t.val ≠ 0 → xs1 = accT1 V c (t.val - 1) (Nat.lt_of_le_of_lt (Nat.sub_le _ _) t.isLt)) :
    iprop(iprop(iprop(owns (c : Thread nD τ) scM1_0 fullShare xs0 ∗ owns (c : Thread nD τ) scM1_1 fullShare xs1 ∗ others1 c) ∗ (∃ r, prngReg c r))
        ∗ (dat1 V c).owesAt () t.castSucc
        ∗ (∃ d, owns (c : Thread nD τ) (ms1_0 t) fullShare ((dat1 V c).before 0 t d))
        ∗ (∃ d, owns (c : Thread nD τ) (ms1_1 t) fullShare ((dat1 V c).before 1 t d))
        ∗ (∃ d, owns (c : Thread nD τ) (ms1_2 t) fullShare ((dat1 V c).before 2 t d)))
      ⊢ wp frame (wpE (defs₀ (F := F)) Variants.none c none) Set.univ (bodyAt1 t) (fun _ => bodyPost1 V c t) := by
  have hO : ∀ d, owns (c : Thread nD τ) (ms1_2 t) fullShare (stepO (grid1.coords t) (qblk1 V c t) (kblk1 V c t) ((dat1 V c).before 2 t d) xs0 xs1) ⊢ (dat1 V c).leavesExact 2 t := by
    intro d
    unfold stepO
    by_cases h4 : cond0_4 (grid1.coords t)
    · rw [if_pos h4, stepT1_eq V c t xs0 xs1 hxs0 hxs1,
        show (dat1 V c).leavesExact 2 t = owns (c : Thread nD τ) (ms1_2 t) fullShare ((dat1 V c).after 2 t) from by
          unfold Dat.leavesExact; rw [liveAt1_2 t h4], after1_2]
      exact BI.Entails.refl _
    · rw [if_neg h4, Dat.leavesExact_idle (dat1 V c) 2 t (idleAt1_2 t h4) (noFlush1_2 t h4)]
      iintro H; iexists _; iexact H
  unfold bodyPost1 bodyAt1
  rw [show cc1_kernel (F := F) = cc0_kernel from rfl]
  simp only [before1_0, before1_1]
  rw [show (dat1 V c).owesAt () t.succ = (dat1 V c).owesAt () t.castSucc from rfl,
    show (dat1 V c).Φ t.succ = PhiS1 V c (t.val + 1) t.isLt from rfl, PhiS1_succ,
    show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1,
    ← stepT1_eq V c t xs0 xs1 hxs0 hxs1, ← stepM1_eq V c t xs0 hxs0]
  iintro ⟨⟨⟨HS0, HS1, Hoth⟩, Hg⟩, Ho, ⟨%d0, H0⟩, ⟨%d1, H1⟩, ⟨%d2, H2⟩⟩
  iapply (step0 c (grid1.coords t) (ms1_0 t) (hs1_0 t) (ms1_1 t) (hs1_1 t) (ms1_2 t) (hs1_2 t) scM1_0 (Memref.isWhole_whole _) scM1_1 (Memref.isWhole_whole _)
    (himp0 t).1 (himp0 t).2.1 (himp0 t).2.2 (qblk1 V c t) (kblk1 V c t) _ xs0 xs1 Set.univ _)
  isplitl [H0]; · iexact H0
  isplitl [H1]; · iexact H1
  isplitl [H2]; · iexact H2
  isplitl [HS0]; · iexact HS0
  isplitl [HS1]; · iexact HS1
  iintro ⟨H0, H1, H2, HS0, HS1⟩
  isplitl [HS0 HS1 Hoth Hg]
  · isplitr [Hg]
    · isplitl [HS0]; · iexact HS0
      isplitl [HS1]; · iexact HS1
      iexact Hoth
    iexact Hg
  isplitl [Ho]; · iexact Ho
  isplitl [H0]; · iexact H0
  isplitl [H1]; · iexact H1
  iapply (hO _); iexact H2

theorem sound_body1 (c : Dev nD) (t : Fin cfg1.N) :
    bodyPre1 V c t ⊢ wp frame (wpE (defs₀ (F := F)) Variants.none c none) Set.univ (bodyAt1 t) (fun _ => bodyPost1 V c t) := by
  unfold bodyPre1
  rw [PhiS1_castSucc V c t]
  by_cases hz : t.val = 0
  · rw [PhiS1_zero V c _ _ hz, PhiA1_eq]
    iintro ⟨⟨⟨⟨%xs0, HS0⟩, ⟨%xs1, HS1⟩, Hoth⟩, Hg⟩, Hrest⟩
    iapply (core1 V c t xs0 xs1 (fun h => absurd hz h) (fun h => absurd hz h))
    isplitr [Hrest]
    · isplitr [Hg]
      · isplitl [HS0]; · iexact HS0
        isplitl [HS1]; · iexact HS1
        iexact Hoth
      iexact Hg
    iexact Hrest
  · rw [PhiS1_pos V c _ _ hz]
    exact core1 V c t _ _ (fun _ => rfl) (fun _ => rfl)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS0, HS1, Hoth⟩, Hg⟩
  isplitr [Hg]
  · isplitl [HS0]; · iexists _; iexact HS0
    isplitl [HS1]; · iexists _; iexact HS1
    iexact Hoth
  iexact Hg

end

end Cert.KernelIdeal.Fr

end
-- ==== Proof.KI.Run.lean ====
import proofs.«158586_j62723702391632_1_alg».proof.Proof.KI.R0.Body
import proofs.«158586_j62723702391632_1_alg».proof.Proof.KI.R1.Body
import Idealize.ShloMosaic.Lib.Pipeline.RegionsLoop
import Idealize.ShloMosaic.Lib.Pipeline.FrameSuffix

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)
abbrev V0 : (c : Dev nD) → (b : Ref sig .tc) → Buf (Elt F) ((c : Thread nD τ).loc b) := fun c b => W0 m c b

def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb

abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb

abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

abbrev W3 : Dev nD → Valuation τ sig (Elt F) := fun c => StableHlo.after hostOps2 (W2 m c)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps2_noalloc : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V0 m) c).Φ 0 from rfl]
    refine BI.Entails.trans ?_ (hin0 (V0 m) c)
    unfold Pipeline.ΦA
    show (_ : sProp 𝕄) ⊢ _
    iintro ⟨Hp, -, Hr⟩
    isplitl [Hr]; · iexact Hr
    iexact Hp
  hout c := by
    rw [Pipeline.ownSems0_none, show (pdats m 0 c).Φ (Fin.last _) = (dat0 (V0 m) c).Φ (Fin.last cfg0.N) from rfl]
    refine BI.Entails.trans (hout0 (V0 m) c) ?_
    unfold Pipeline.ΦA
    show (_ : sProp 𝕄) ⊢ _
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V1 m) c).Φ 0 from rfl]
    refine BI.Entails.trans ?_ (hin1 (V1 m) c)
    unfold Pipeline.ΦA
    show (_ : sProp 𝕄) ⊢ _
    iintro ⟨Hp, -, Hr⟩
    isplitl [Hr]; · iexact Hr
    iexact Hp
  hout c := by
    rw [Pipeline.ownSems0_none, show (pdats m 1 c).Φ (Fin.last _) = (dat1 (V1 m) c).Φ (Fin.last cfg1.N) from rfl]
    refine BI.Entails.trans (hout1 (V1 m) c) ?_
    unfold Pipeline.ΦA
    show (_ : sProp 𝕄) ⊢ _
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .region (reg0 m), .region (reg1 m), .host (hseg hostOps2 hostOps2_sub hostOps2_noalloc (W2 m)) ]
theorem main_run (c : Dev nD) : main (F := F) c = Pipeline.Seg.run (segs m) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show (iprop(StableHlo.held (c : Thread nD τ) (Pipeline.ucRefs τ sig) (W3 m c) ∗ R c) : sProp 𝕄) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := (W2_arr m c 1).trans (((dat1 (V1 m) c).arrAt_in 1 rfl _).trans (A_eq1 (V1 m) c 1))
    _ = W0 m c (Proc.devRef .tc main_arg0) := (W1_arr m c 0).trans (((dat0 (V0 m) c).arrAt_in 0 rfl _).trans (A_eq0 (V0 m) c 0))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := (W2_arr m c 0).trans (((dat1 (V1 m) c).arrAt_in 0 rfl _).trans (A_eq1 (V1 m) c 0))
    _ = W0 m c (Proc.devRef .tc main_arg1) := (W1_arr m c 1).trans (((dat0 (V0 m) c).arrAt_in 1 rfl _).trans (A_eq0 (V0 m) c 1))
    _ = m ((c : Thread nD τ).loc main_arg1) := rfl

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m c),
     (h c _ (mem_uc main_arg1 (by decide))).trans (W3_main_arg1 m c)⟩) (run_all m ρ)

end Cert.KernelIdeal.Fr

end
-- ==== Proof.LibMinAxis.lean ====
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Idealize.ShloMosaic.MinAxis

open Idealize.ShloMosaic Idealize.ShloMosaic.ValueIdx

theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

section Layout
variable {α : Type}

theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

theorem shapeCast_a_11a_apply {a : ℕ} (x : (⟨1, ![a]⟩ : Shape).Idx → α)
    (h : (⟨1, ![a]⟩ : Shape).ShapeCasts ⟨3, ![1, 1, a]⟩) (u w : Fin 1) (i : Fin a) :
    shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    rw [hu, hw]; omega)

end Layout

end Idealize.ShloMosaic.MinAxis

end
-- ==== Proof.Alg.lean ====
import Idealize.ShloMosaic.Lib.ValueIdx
import Idealize.ShloMosaic.PureOps.Ideal.Laws

noncomputable section

open scoped BigOperators

namespace Cert.Alg

theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

private theorem coe_min' (x y : ℝ) : ((min x y : ℝ) : EReal) = min (x : EReal) (y : EReal) :=
  (EReal.coe_strictMono.monotone).map_min

private theorem fold_min_coe_aux {ι : Type} (s : Finset ι) (hs : s.Nonempty) (a : EReal) (f : ι → ℝ) :
    s.fold min a (fun k => ((f k : ℝ) : EReal)) = min a ((s.inf' hs f : ℝ) : EReal) := by
  induction hs using Finset.Nonempty.cons_induction with
  | singleton x =>
    rw [Finset.fold_singleton, Finset.inf'_singleton, min_comm]
  | cons x s hx hs ih =>
    rw [Finset.fold_cons, ih, Finset.inf'_cons hs, coe_min', min_left_comm]

theorem fold_min_coe {ι : Type} [Fintype ι] (h : (Finset.univ : Finset ι).Nonempty) (a : EReal) (f : ι → ℝ) :
    (Finset.univ : Finset ι).fold min a (fun k => ((f k : ℝ) : EReal)) = min a ((Finset.univ.inf' h f : ℝ) : EReal) :=
  fold_min_coe_aux Finset.univ h a f

theorem fold_min_top_coe {ι : Type} [Fintype ι] (h : (Finset.univ : Finset ι).Nonempty) (f : ι → ℝ) :
    (Finset.univ : Finset ι).fold min (⊤ : EReal) (fun k => ((f k : ℝ) : EReal)) = ((Finset.univ.inf' h f : ℝ) : EReal) := by
  rw [fold_min_coe_aux Finset.univ h ⊤ f, min_top_left]

theorem sq_expand (a b : Fin 3 → ℝ) :
    (∑ d, a d * a d) + (∑ d, b d * b d) - 2 * (∑ d, a d * b d) = ∑ d, (a d - b d) ^ 2 := by
  simp only [Fin.sum_univ_three]
  ring

theorem max_sq_expand (a b : Fin 3 → ℝ) :
    max ((∑ d, a d * a d) + (∑ d, b d * b d) - 2 * (∑ d, a d * b d)) 0 = ∑ d, (a d - b d) ^ 2 := by
  rw [sq_expand]
  exact max_eq_left (Finset.sum_nonneg (fun d _ => sq_nonneg _))

theorem inf'_tiles (f : Fin 8192 → ℝ) :
    Finset.univ.inf' ⟨(0 : Fin 8192), Finset.mem_univ _⟩ f
      = Finset.univ.inf' ⟨(0 : Fin 16), Finset.mem_univ _⟩ (fun j : Fin 16 =>
          Finset.univ.inf' ⟨(0 : Fin 512), Finset.mem_univ _⟩ (fun s : Fin 512 => f ⟨512 * j.val + s.val, by omega⟩)) := by
  apply le_antisymm
  ·
    refine Finset.le_inf' _ _ (fun j _ => ?_)
    refine Finset.le_inf' _ _ (fun s _ => ?_)
    exact Finset.inf'_le f (Finset.mem_univ _)
  ·
    refine Finset.le_inf' _ _ (fun n _ => ?_)
    have hn := n.isLt
    have hq : n.val / 512 < 16 := by omega
    have hr : n.val % 512 < 512 := by omega
    refine (Finset.inf'_le _ (Finset.mem_univ (⟨n.val / 512, hq⟩ : Fin 16))).trans ?_
    refine (Finset.inf'_le _ (Finset.mem_univ (⟨n.val % 512, hr⟩ : Fin 512))).trans ?_
    apply le_of_eq
    congr 1
    apply Fin.ext
    show 512 * (n.val / 512) + n.val % 512 = n.val
    omega

private def tileEquiv : Fin 8 × Fin 1024 ≃ Fin 8192 where
  toFun p := ⟨1024 * p.1.val + p.2.val, by omega⟩
  invFun n := (⟨n.val / 1024, by omega⟩, ⟨n.val % 1024, by omega⟩)
  left_inv p := by
    obtain ⟨i, r⟩ := p
    apply Prod.ext
    · apply Fin.ext
      show (1024 * i.val + r.val) / 1024 = i.val
      omega
    · apply Fin.ext
      show (1024 * i.val + r.val) % 1024 = r.val
      omega
  right_inv n := by
    apply Fin.ext
    show 1024 * (n.val / 1024) + n.val % 1024 = n.val
    omega

theorem sum_tiles (f : Fin 8192 → ℝ) :
    ∑ n : Fin 8192, f n = ∑ i : Fin 8, ∑ r : Fin 1024, f ⟨1024 * i.val + r.val, by omega⟩ := by
  rw [← Fintype.sum_prod_type' (fun (i : Fin 8) (r : Fin 1024) => f ⟨1024 * i.val + r.val, by omega⟩)]
  exact (Fintype.sum_equiv tileEquiv _ _ (fun _ => rfl)).symm

end Cert.Alg

end
-- ==== Proof.KI.Pay.lean ====
import proofs.«158586_j62723702391632_1_alg».proof.Proof.Gen.KernelIdeal.Skeleton
import proofs.«158586_j62723702391632_1_alg».proof.Proof.LibMinAxis
import proofs.«158586_j62723702391632_1_alg».proof.Proof.Alg
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Pay

open Idealize.ShloMosaic Idealize.ShloMosaic.ValueIdx Cert.KernelIdeal Cert.KernelIdeal.Gen

private theorem ofBits_inf_f32 : Ideal.ofBits .f32 0x7F800000#32 = ⊤ := by simp [Ideal.ofBits, Ideal.ieee]

private theorem ofBits_2pm13_f32 : Ideal.ofBits .f32 0x39000000#32 = (((1 / 8192 : ℝ) : ℝ) : EReal) := by
  simp [Ideal.ofBits, Ideal.ieee, -EReal.coe_mul]
  norm_num

private theorem lift3_eq (b : Fin 4) (r : Fin 1024) (s : Fin 512) :
    reduces_S4x1024x512_S4x1024.lift (ix2 b r) s = ix3 b r s := by
  funext c
  refine Fin.ext ?_
  match c with
  | ⟨0, _⟩ => rfl
  | ⟨1, _⟩ => rfl
  | ⟨2, _⟩ => rfl

private theorem lift2_eq (b : Fin 4) (r : Fin 1024) :
    reduces_S4x1024_S4.lift (ix1 b) r = ix2 b r := by
  funext c
  refine Fin.ext ?_
  match c with
  | ⟨0, _⟩ => rfl
  | ⟨1, _⟩ => rfl

private theorem qside (x0 : Vec Ideal S4x1024x3 .f32) (o : ℕ) (ho : o < 3)
    (hs : S4x1024x3.Slices ![0, 0, o] S4x1024x1) (b : Fin 4) (r : Fin 1024) (s : Fin 512) :
    broadcastTo S4x1024x512
        (shapeCast S4x1024x1 (shapeCast S4x1024 (extractStridedSlice S4x1024x1 ![0, 0, o] x0 hs) shapeCasts_S4x1024x1_S4x1024)
          shapeCasts_S4x1024_S4x1024x1)
        broadcasts_S4x1024x1_S4x1024x512 (ix3 b r s)
      = x0 (ix3 b r ⟨o, ho⟩) := by
  rw [shapeCast_shapeCast]
  refine (broadcastTo_apply _ broadcasts_S4x1024x1_S4x1024x512 (ix3 b r s) (ix3 b r (0 : Fin 1)) ?_).trans ?_
  · intro a
    match a with
    | ⟨0, _⟩ => rfl
    | ⟨1, _⟩ => rfl
    | ⟨2, _⟩ => rfl
  refine extractStridedSlice_apply _ x0 hs (ix3 b r (0 : Fin 1)) (ix3 b r ⟨o, ho⟩) ?_
  intro a
  match a with
  | ⟨0, _⟩ => exact (Nat.zero_add _).symm
  | ⟨1, _⟩ => exact (Nat.zero_add _).symm
  | ⟨2, _⟩ => rfl

private theorem kside (x1 : Vec Ideal S4x512x3 .f32) (o : ℕ) (ho : o < 3)
    (hs : S4x512x3.Slices ![0, 0, o] S4x512x1) (b : Fin 4) (r : Fin 1024) (s : Fin 512) :
    broadcastTo S4x1024x512
        (shapeCast S4x1x512 (shapeCast S4x512 (extractStridedSlice S4x512x1 ![0, 0, o] x1 hs) shapeCasts_S4x512x1_S4x512)
          shapeCasts_S4x512_S4x1x512)
        broadcasts_S4x1x512_S4x1024x512 (ix3 b r s)
      = x1 (ix3 b s ⟨o, ho⟩) := by
  refine (broadcastTo_apply _ broadcasts_S4x1x512_S4x1024x512 (ix3 b r s) (ix3 b (0 : Fin 1) s) ?_).trans ?_
  · intro a
    match a with
    | ⟨0, _⟩ => rfl
    | ⟨1, _⟩ => rfl
    | ⟨2, _⟩ => rfl
  refine (shapeCast_apply _ shapeCasts_S4x512_S4x1x512 (ix3 b (0 : Fin 1) s) (ix2 b s) ?_).trans ?_
  · rw [Shape.rowMajor_val_two, Shape.rowMajor_val_three]
    show b.val * 512 + s.val = (b.val * 1 + 0) * 512 + s.val
    omega
  refine (shapeCast_apply _ shapeCasts_S4x512x1_S4x512 (ix2 b s) (ix3 b s (0 : Fin 1)) ?_).trans ?_
  · rw [Shape.rowMajor_val_three, Shape.rowMajor_val_two]
    show (b.val * 512 + s.val) * 1 + 0 = b.val * 512 + s.val
    omega
  refine extractStridedSlice_apply _ x1 hs (ix3 b s (0 : Fin 1)) (ix3 b s ⟨o, ho⟩) ?_
  intro a
  match a with
  | ⟨0, _⟩ => exact (Nat.zero_add _).symm
  | ⟨1, _⟩ => exact (Nat.zero_add _).symm
  | ⟨2, _⟩ => rfl

private theorem three_squares (A0 A1 A2 C0 C1 C2 : ℝ) :
    ((0 + ((A0 : EReal) - (C0 : EReal)) * ((A0 : EReal) - (C0 : EReal)))
        + ((A1 : EReal) - (C1 : EReal)) * ((A1 : EReal) - (C1 : EReal)))
        + ((A2 : EReal) - (C2 : EReal)) * ((A2 : EReal) - (C2 : EReal))
      = (((A0 - C0) ^ 2 + (A1 - C1) ^ 2 + (A2 - C2) ^ 2 : ℝ) : EReal) := by
  rw [zero_add]
  simp only [← EReal.coe_sub, ← EReal.coe_mul, ← EReal.coe_add]
  refine congrArg _ ?_
  ring

theorem pay6_0_ereal (x0 : Vec Ideal S4x1024x3 .f32) (x1 : Vec Ideal S4x512x3 .f32)
    (b : Fin 4) (r : Fin 1024) (s : Fin 512) :
    k0_pay6 (F := Ideal) x0 x1 (ix3 b r s)
      = ((0 + (x0 (ix3 b r (0 : Fin 3)) - x1 (ix3 b s (0 : Fin 3))) * (x0 (ix3 b r (0 : Fin 3)) - x1 (ix3 b s (0 : Fin 3))))
          + (x0 (ix3 b r (1 : Fin 3)) - x1 (ix3 b s (1 : Fin 3))) * (x0 (ix3 b r (1 : Fin 3)) - x1 (ix3 b s (1 : Fin 3))))
          + (x0 (ix3 b r (2 : Fin 3)) - x1 (ix3 b s (2 : Fin 3))) * (x0 (ix3 b r (2 : Fin 3)) - x1 (ix3 b s (2 : Fin 3))) := by
  have q0 := qside x0 0 (by omega) slices_S4x1024x3_o0_0_0_S4x1024x1 b r s
  have q1 := qside x0 1 (by omega) slices_S4x1024x3_o0_0_1_S4x1024x1 b r s
  have q2 := qside x0 2 (by omega) slices_S4x1024x3_o0_0_2_S4x1024x1 b r s
  have e0 := kside x1 0 (by omega) slices_S4x512x3_o0_0_0_S4x512x1 b r s
  have e1 := kside x1 1 (by omega) slices_S4x512x3_o0_0_1_S4x512x1 b r s
  have e2 := kside x1 2 (by omega) slices_S4x512x3_o0_0_2_S4x512x1 b r s
  unfold k0_pay6
  simp only [addf_apply, mulf_apply, subf_apply, broadcast_apply]
  rw [q0, q1, q2, e0, e1, e2, Ideal.ofBits_def, Ideal.ofBits_zero_f32]
  rfl

theorem pay6_0_real (x0 : Vec Ideal S4x1024x3 .f32) (x1 : Vec Ideal S4x512x3 .f32)
    (h0 : ∀ i, x0 i = (((x0 i).toReal : ℝ) : EReal)) (h1 : ∀ i, x1 i = (((x1 i).toReal : ℝ) : EReal))
    (b : Fin 4) (r : Fin 1024) (s : Fin 512) :
    k0_pay6 (F := Ideal) x0 x1 (ix3 b r s)
      = ((∑ d : Fin 3, ((x0 (ix3 b r d)).toReal - (x1 (ix3 b s d)).toReal) ^ 2 : ℝ) : EReal) := by
  obtain ⟨A0, hA0⟩ : ∃ A : ℝ, x0 (ix3 b r (0 : Fin 3)) = (A : EReal) := ⟨_, h0 _⟩
  obtain ⟨A1, hA1⟩ : ∃ A : ℝ, x0 (ix3 b r (1 : Fin 3)) = (A : EReal) := ⟨_, h0 _⟩
  obtain ⟨A2, hA2⟩ : ∃ A : ℝ, x0 (ix3 b r (2 : Fin 3)) = (A : EReal) := ⟨_, h0 _⟩
  obtain ⟨C0, hC0⟩ : ∃ C : ℝ, x1 (ix3 b s (0 : Fin 3)) = (C : EReal) := ⟨_, h1 _⟩
  obtain ⟨C1, hC1⟩ : ∃ C : ℝ, x1 (ix3 b s (1 : Fin 3)) = (C : EReal) := ⟨_, h1 _⟩
  obtain ⟨C2, hC2⟩ : ∃ C : ℝ, x1 (ix3 b s (2 : Fin 3)) = (C : EReal) := ⟨_, h1 _⟩
  rw [pay6_0_ereal, Fin.sum_univ_three, hA0, hA1, hA2, hC0, hC1, hC2]
  simp only [EReal.toReal_coe]
  exact three_squares A0 A1 A2 C0 C1 C2

theorem pay1_0_apply (v43 : FVec Ideal S4x1024x512 .f32) (v45 : Vec Ideal S4x1024 .f32) (b : Fin 4) (r : Fin 1024) :
    k0_pay1 (F := Ideal) v43 v45 (ix2 b r)
      = min (v45 (ix2 b r)) ((Finset.univ : Finset (Fin 512)).fold min (⊤ : EReal) (fun s => v43 (ix3 b r s))) := by
  unfold k0_pay1
  rw [shapeCast_self]
  show min (v45 (ix2 b r)) _ = _
  refine congrArg (min (v45 (ix2 b r))) ?_
  refine (MinAxis.multiReduction_minimumf_single v43 0x7F800000#32 reduces_S4x1024x512_S4x1024 (.inl rfl) rfl (ix2 b r)).trans ?_
  show (Finset.univ : Finset (Fin 512)).fold min (Ideal.ofBits .f32 0x7F800000#32) _ = _
  rw [ofBits_inf_f32]
  have hf : (v43 ∘ reduces_S4x1024x512_S4x1024.lift (ix2 b r)) = fun s : Fin 512 => v43 (ix3 b r s) :=
    funext fun s => congrArg v43 (lift3_eq b r s)
  rw [hf]

theorem pay2_0_apply (v58 : Vec Ideal S4x1 .f32) (v59 : Vec Ideal S4x1024 .f32) (b : Fin 4) (z : Fin 1) :
    k0_pay2 (F := Ideal) v58 v59 (ix2 b z) = v58 (ix2 b z) + ∑ r : Fin 1024, v59 (ix2 b r) := by
  unfold k0_pay2
  rw [shapeCast_self]
  show v58 (ix2 b z) + _ = _
  refine congrArg (v58 (ix2 b z) + ·) ?_
  refine (shapeCast_apply _ shapeCasts_S4_S4x1 (ix2 b z) (ix1 b) ?_).trans ?_
  · have hz : z.val = 0 := by omega
    rw [Shape.rowMajor_val_one, Shape.rowMajor_val_two]
    show b.val = b.val * 1 + z.val
    omega
  refine (Ideal.multiReduction_add_single v59 0x00000000#32 reduces_S4x1024_S4 (.inl rfl) rfl (ix1 b)).trans ?_
  show ∑ k : Fin 1024, v59 (reduces_S4x1024_S4.lift (ix1 b) k) = _
  exact Finset.sum_congr rfl fun r _ => congrArg v59 (lift2_eq b r)

theorem pay3_0_apply (v58 : Vec Ideal S4x1 .f32) (b : Fin 4) (z : Fin 1) :
    k0_pay3 (F := Ideal) v58 (ix2 b z) = v58 (ix2 b z) * (((1 / 8192 : ℝ) : ℝ) : EReal) := by
  unfold k0_pay3
  show v58 (ix2 b z) * Ideal.ofBits .f32 0x39000000#32 = _
  rw [ofBits_2pm13_f32]

theorem pay4_0_apply (b : Fin 4) (z : Fin 1) : k0_pay4 (F := Ideal) (ix2 b z) = 0 := by
  unfold k0_pay4
  rw [shapeCast_self]
  exact Ideal.ofBits_zero_f32

theorem pay5_0_apply (b : Fin 4) (r : Fin 1024) : k0_pay5 (F := Ideal) (ix2 b r) = ⊤ := by
  unfold k0_pay5
  rw [shapeCast_self]
  exact ofBits_inf_f32

end Cert.KernelIdeal.Pay

end
-- ==== Proof.Spec.lean ====
import Idealize.ShloMosaic.Lib.ValueIdx
import Idealize.ShloMosaic.PureOps.Ideal.Laws

noncomputable section

namespace Cert.Spec

abbrev Cloud := Fin 4 → Fin 8192 → Fin 3 → ℝ

def dist2 (p q : Cloud) (b : Fin 4) (n m : Fin 8192) : ℝ := ∑ d : Fin 3, (p b n d - q b m d) ^ 2

def nearest (p q : Cloud) (b : Fin 4) (n : Fin 8192) : ℝ :=
  Finset.univ.inf' ⟨(0 : Fin 8192), Finset.mem_univ _⟩ (fun m => dist2 p q b n m)

def dirMean (p q : Cloud) (b : Fin 4) : ℝ := (∑ n : Fin 8192, nearest p q b n) / 8192

def chamfer (p q : Cloud) : ℝ := (∑ b : Fin 4, (dirMean p q b + dirMean q p b)) / 4

def cloud (P : (⟨3, ![4, 8192, 3]⟩ : Idealize.ShloMosaic.Shape).Idx → EReal) : Cloud :=
  fun b n d => (P (Idealize.ShloMosaic.ValueIdx.ix3 b n d)).toReal

theorem dist2_symm (p q : Cloud) (b : Fin 4) (n m : Fin 8192) : dist2 p q b n m = dist2 q p b m n := by
  unfold dist2; exact Finset.sum_congr rfl fun d _ => by ring

end Cert.Spec

end
-- ==== Proof.KI.R0.AccValue.lean ====
import proofs.«158586_j62723702391632_1_alg».proof.Proof.KI.R0.Acc
import proofs.«158586_j62723702391632_1_alg».proof.Proof.KI.Pay
import proofs.«158586_j62723702391632_1_alg».proof.Proof.Alg
import proofs.«158586_j62723702391632_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

private def leastUpTo (g : ℕ → ℝ) : ℕ → ℝ
  | 0 => g 0
  | k + 1 => min (leastUpTo g k) (g (k + 1))

private theorem leastUpTo_zero (g : ℕ → ℝ) : leastUpTo g 0 = g 0 := rfl
private theorem leastUpTo_succ (g : ℕ → ℝ) (k : ℕ) : leastUpTo g (k + 1) = min (leastUpTo g k) (g (k + 1)) := rfl

private theorem leastUpTo_le (g : ℕ → ℝ) : ∀ (k j : ℕ), j ≤ k → leastUpTo g k ≤ g j
  | 0, j, h => by
    obtain rfl : j = 0 := by omega
    exact le_refl _
  | k + 1, j, h => by
    rcases Nat.lt_or_ge j (k + 1) with h' | h'
    · exact (min_le_left _ _).trans (leastUpTo_le g k j (by omega))
    · obtain rfl : j = k + 1 := by omega
      exact min_le_right _ _

private theorem le_leastUpTo (g : ℕ → ℝ) (x : ℝ) : ∀ k : ℕ, (∀ j, j ≤ k → x ≤ g j) → x ≤ leastUpTo g k
  | 0, h => h 0 le_rfl
  | k + 1, h => le_min (le_leastUpTo g x k fun j hj => h j (by omega)) (h (k + 1) le_rfl)

private theorem leastUpTo_eq_inf' (g : ℕ → ℝ) (k N : ℕ) (hN : N = k + 1) (z : Fin N) (f : Fin N → ℝ) (hf : ∀ j : Fin N, f j = g j.val) :
    leastUpTo g k = Finset.univ.inf' ⟨z, Finset.mem_univ _⟩ f := by
  apply le_antisymm
  · exact Finset.le_inf' _ _ fun j _ => by
      rw [hf j]
      exact leastUpTo_le g k j.val (by have := j.isLt; omega)
  · refine le_leastUpTo g _ k fun j hj => ?_
    have h := Finset.inf'_le f (Finset.mem_univ (⟨j, by omega⟩ : Fin N))
    rw [hf] at h
    exact h

private def tileLeast (p q : Cert.Spec.Cloud) (b : Fin 4) (row j : ℕ) : ℝ :=
  if h : row < 8192 ∧ j < 16 then
    Finset.univ.inf' ⟨(0 : Fin 512), Finset.mem_univ _⟩
      (fun s : Fin 512 => Cert.Spec.dist2 p q b ⟨row, h.1⟩ ⟨512 * j + s.val, by have := h.2; omega⟩)
  else 0

private def nearestAt (p q : Cert.Spec.Cloud) (b : Fin 4) (row : ℕ) : ℝ :=
  if h : row < 8192 then Cert.Spec.nearest p q b ⟨row, h⟩ else 0

private def rowsLeastSum (p q : Cert.Spec.Cloud) (b : Fin 4) (i : ℕ) : ℝ :=
  ∑ r : Fin 1024, nearestAt p q b (1024 * i + r.val)

private theorem leastUpTo_tileLeast (p q : Cert.Spec.Cloud) (b : Fin 4) (row : ℕ) (h : row < 8192) :
    leastUpTo (tileLeast p q b row) 15 = nearestAt p q b row := by
  unfold nearestAt
  rw [dif_pos h]
  unfold Cert.Spec.nearest
  refine Eq.trans ?_ (Cert.Alg.inf'_tiles (fun m => Cert.Spec.dist2 p q b ⟨row, h⟩ m)).symm
  refine leastUpTo_eq_inf' _ 15 16 rfl 0 _ fun j => ?_
  unfold tileLeast
  rw [dif_pos ⟨h, j.isLt⟩]

def IsReal (A : S4x8192x3.Idx → EReal) : Prop := ∀ i, A i = (((A i).toReal : ℝ) : EReal)

/-- Query block n is rows 1024 (n / 16) .. of the array A; key block n is rows 512 (n mod 16) .. of B. -/
def ReadsRows (A : S4x8192x3.Idx → EReal) (q : (n : ℕ) → n < cfg0.N → Vec Ideal S4x1024x3 .f32) : Prop :=
  ∀ n hn (b : Fin 4) (r : Fin 1024) (d : Fin 3) (hr : 1024 * (n / 16) + r.val < 8192),
    q n hn (ix3 b r d) = A (ix3 b ⟨1024 * (n / 16) + r.val, hr⟩ d)

def ReadsCols (B : S4x8192x3.Idx → EReal) (k : (n : ℕ) → n < cfg0.N → Vec Ideal S4x512x3 .f32) : Prop :=
  ∀ n hn (b : Fin 4) (s : Fin 512) (d : Fin 3) (hs : 512 * (n % 16) + s.val < 8192),
    k n hn (ix3 b s d) = B (ix3 b ⟨512 * (n % 16) + s.val, hs⟩ d)

section
variable {A B : S4x8192x3.Idx → EReal} {q : (n : ℕ) → n < cfg0.N → Vec Ideal S4x1024x3 .f32} {k : (n : ℕ) → n < cfg0.N → Vec Ideal S4x512x3 .f32}

private theorem q_real (hq : ReadsRows A q) (hA : IsReal A) (n : ℕ) (hn : n < cfg0.N) :
    ∀ i, q n hn i = (((q n hn i).toReal : ℝ) : EReal) := by
  intro i
  have hN : n < 128 := lt_of_lt_of_eq hn N_0
  obtain ⟨b, r, d, rfl⟩ : ∃ (b : Fin 4) (r : Fin 1024) (d : Fin 3), i = ix3 b r d := ⟨i 0, i 1, i 2, eq_ix3 i⟩
  rw [hq n hn b r d (by omega)]
  exact hA _

private theorem k_real (hk : ReadsCols B k) (hB : IsReal B) (n : ℕ) (hn : n < cfg0.N) :
    ∀ i, k n hn i = (((k n hn i).toReal : ℝ) : EReal) := by
  intro i
  have hN : n < 128 := lt_of_lt_of_eq hn N_0
  obtain ⟨b, s, d, rfl⟩ : ∃ (b : Fin 4) (s : Fin 512) (d : Fin 3), i = ix3 b s d := ⟨i 0, i 1, i 2, eq_ix3 i⟩
  rw [hk n hn b s d (by omega)]
  exact hB _

private theorem tile_apply (hq : ReadsRows A q) (hk : ReadsCols B k) (hA : IsReal A) (hB : IsReal B)
    (n : ℕ) (hn : n < cfg0.N) (b : Fin 4) (r : Fin 1024) (s : Fin 512)
    (hr : 1024 * (n / 16) + r.val < 8192) (hs : 512 * (n % 16) + s.val < 8192) :
    k0_pay6 (F := Ideal) (q n hn) (k n hn) (ix3 b r s)
      = ((Cert.Spec.dist2 (Cert.Spec.cloud A) (Cert.Spec.cloud B) b ⟨1024 * (n / 16) + r.val, hr⟩ ⟨512 * (n % 16) + s.val, hs⟩ : ℝ) : EReal) := by
  rw [Pay.pay6_0_real _ _ (q_real hq hA n hn) (k_real hk hB n hn) b r s]
  refine congrArg Real.toEReal ?_
  unfold Cert.Spec.dist2
  refine Finset.sum_congr rfl fun d _ => ?_
  rw [hq n hn b r d hr, hk n hn b s d hs]
  rfl

private theorem tileMin_apply (hq : ReadsRows A q) (hk : ReadsCols B k) (hA : IsReal A) (hB : IsReal B)
    (n : ℕ) (hn : n < cfg0.N) (b : Fin 4) (r : Fin 1024) :
    (Finset.univ : Finset (Fin 512)).fold min (⊤ : EReal)
        (fun s => k0_pay6 (F := Ideal) (q n hn) (k n hn) (ix3 b r s))
      = ((tileLeast (Cert.Spec.cloud A) (Cert.Spec.cloud B) b (1024 * (n / 16) + r.val) (n % 16) : ℝ) : EReal) := by
  have hN : n < 128 := lt_of_lt_of_eq hn N_0
  have hr : 1024 * (n / 16) + r.val < 8192 := by omega
  have hj : n % 16 < 16 := by omega
  refine (congrArg (fun f => (Finset.univ : Finset (Fin 512)).fold min (⊤ : EReal) f)
    (funext fun s => tile_apply hq hk hA hB n hn b r s hr (by omega))).trans ?_
  refine (Cert.Alg.fold_min_top_coe ⟨(0 : Fin 512), Finset.mem_univ _⟩ _).trans ?_
  unfold tileLeast
  rw [dif_pos ⟨hr, hj⟩]

private theorem accM_value (hq : ReadsRows A q) (hk : ReadsCols B k) (hA : IsReal A) (hB : IsReal B) :
    ∀ (n : ℕ) (hn : n < cfg0.N) (b : Fin 4) (r : Fin 1024),
      accM (F := Ideal) q k n hn (ix2 b r)
        = ((leastUpTo (tileLeast (Cert.Spec.cloud A) (Cert.Spec.cloud B) b (1024 * (n / 16) + r.val)) (n % 16) : ℝ) : EReal) := by
  intro n
  induction n with
  | zero =>
    intro hn b r
    rw [accM_zero, Pay.pay1_0_apply, Pay.pay5_0_apply, tileMin_apply hq hk hA hB 0 hn b r, min_top_left]
    rfl
  | succ n ih =>
    intro hn b r
    by_cases h : (n + 1) % 16 = 0
    · rw [accM_reset q k (n + 1) hn h, Pay.pay1_0_apply, Pay.pay5_0_apply, tileMin_apply hq hk hA hB (n + 1) hn b r, min_top_left, h]
      rfl
    · have e1 : (n + 1) / 16 = n / 16 := by omega
      have e2 : (n + 1) % 16 = n % 16 + 1 := by omega
      rw [accM_step q k n hn h, Pay.pay1_0_apply, ih (Nat.lt_of_succ_lt hn) b r, tileMin_apply hq hk hA hB (n + 1) hn b r, e1, e2,
        leastUpTo_succ, (EReal.coe_strictMono.monotone).map_min]

private theorem accT_value (hq : ReadsRows A q) (hk : ReadsCols B k) (hA : IsReal A) (hB : IsReal B) :
    ∀ (n : ℕ) (hn : n < cfg0.N) (b : Fin 4) (z : Fin 1),
      accT (F := Ideal) q k n hn (ix2 b z)
        = ((∑ i ∈ Finset.range ((n + 1) / 16), rowsLeastSum (Cert.Spec.cloud A) (Cert.Spec.cloud B) b i : ℝ) : EReal) := by
  intro n
  induction n with
  | zero =>
    intro hn b z
    rw [accT_zero, Pay.pay4_0_apply]
    simp
  | succ n ih =>
    intro hn b z
    have hN : n + 1 < 128 := lt_of_lt_of_eq hn N_0
    by_cases h : (n + 1) % 16 = 15
    · have e : (n + 1 + 1) / 16 = (n + 1) / 16 + 1 := by omega
      rw [accT_sum q k n hn h, Pay.pay2_0_apply, ih (Nat.lt_of_succ_lt hn) b z, e, Finset.sum_range_succ, EReal.coe_add]
      refine congrArg (fun x => _ + x) ?_
      unfold rowsLeastSum
      rw [← Cert.Alg.sum_coe]
      refine Finset.sum_congr rfl fun r _ => ?_
      rw [accM_value hq hk hA hB (n + 1) hn b r, h, leastUpTo_tileLeast _ _ _ _ (by omega)]
    · have e : (n + 1 + 1) / 16 = (n + 1) / 16 := by omega
      rw [accT_keep q k n hn h, ih (Nat.lt_of_succ_lt hn) b z, e]

/-- For real arrays the recursion ends, at point 127, at the mean over A's 8192 rows of the least squared distance to a row of B: a least over 8192 is the least of 16 tiles' leasts, a sum over 8192 the sum of 8 tiles' sums. -/
theorem accO_value (hq : ReadsRows A q) (hk : ReadsCols B k) (hA : IsReal A) (hB : IsReal B) (b : Fin 4) (z : Fin 1) :
    accO (F := Ideal) q k 127 (lt_of_lt_of_eq (by omega : 127 < 128) (show cfg0.N = 128 from N_0).symm) (ix2 b z)
      = ((Cert.Spec.dirMean (Cert.Spec.cloud A) (Cert.Spec.cloud B) b : ℝ) : EReal) := by
  unfold accO
  rw [Pay.pay3_0_apply, accT_value hq hk hA hB 127 _ b z, ← EReal.coe_mul]
  refine congrArg Real.toEReal ?_
  unfold Cert.Spec.dirMean
  have e8 : (127 + 1) / 16 = 8 := by norm_num
  rw [e8, Finset.sum_range, mul_one_div]
  refine congrArg (fun x => x / (8192 : ℝ)) ?_
  rw [Cert.Alg.sum_tiles]
  unfold rowsLeastSum
  refine Finset.sum_congr rfl fun i _ => Finset.sum_congr rfl fun r _ => ?_
  unfold nearestAt
  rw [dif_pos (by have := i.isLt; have := r.isLt; omega)]

end

section
variable (V : (c : Dev nD) → (b : Ref sig .tc) → Buf (Elt Ideal) ((c : Thread nD τ).loc b))

private theorem qidx0 : ∀ t : Fin cfg0.N, win0_0.index t (0 : Fin 3) = 0 ∧ win0_0.index t (1 : Fin 3) = t.val / 16 ∧ win0_0.index t (2 : Fin 3) = 0 :=
  (by decide +kernel : ∀ t : Fin grid0.N, _)

private theorem kidx0 : ∀ t : Fin cfg0.N, win0_1.index t (0 : Fin 3) = 0 ∧ win0_1.index t (1 : Fin 3) = t.val % 16 ∧ win0_1.index t (2 : Fin 3) = 0 :=
  (by decide +kernel : ∀ t : Fin grid0.N, _)

private theorem qblk0_apply (c : Dev nD) (t : Fin cfg0.N) (b : Fin 4) (r : Fin 1024) (d : Fin 3) (hr : 1024 * (t.val / 16) + r.val < 8192) :
    qblk0 V c t (ix3 b r d) = (V c main_arg0 : S4x8192x3.Idx → EReal) (ix3 b ⟨1024 * (t.val / 16) + r.val, hr⟩ d) := by
  obtain ⟨e0, e1, e2⟩ := qidx0 t
  unfold qblk0 iblk0
  rw [View.read_apply]
  show V c main_arg0 _ = V c main_arg0 _
  congr 1
  funext a
  apply Fin.ext
  match a with
  | ⟨0, _⟩ => show win0_0.index t (0 : Fin 3) * 4 + 1 * b.val = b.val; rw [e0]; omega
  | ⟨1, _⟩ => show win0_0.index t (1 : Fin 3) * 1024 + 1 * r.val = 1024 * (t.val / 16) + r.val; rw [e1]; omega
  | ⟨2, _⟩ => show win0_0.index t (2 : Fin 3) * 3 + 1 * d.val = d.val; rw [e2]; omega

private theorem kblk0_apply (c : Dev nD) (t : Fin cfg0.N) (b : Fin 4) (s : Fin 512) (d : Fin 3) (hs : 512 * (t.val % 16) + s.val < 8192) :
    kblk0 V c t (ix3 b s d) = (V c main_arg1 : S4x8192x3.Idx → EReal) (ix3 b ⟨512 * (t.val % 16) + s.val, hs⟩ d) := by
  obtain ⟨e0, e1, e2⟩ := kidx0 t
  unfold kblk0 iblk0
  rw [View.read_apply]
  show V c main_arg1 _ = V c main_arg1 _
  congr 1
  funext a
  apply Fin.ext
  match a with
  | ⟨0, _⟩ => show win0_1.index t (0 : Fin 3) * 4 + 1 * b.val = b.val; rw [e0]; omega
  | ⟨1, _⟩ => show win0_1.index t (1 : Fin 3) * 512 + 1 * s.val = 512 * (t.val % 16) + s.val; rw [e1]; omega
  | ⟨2, _⟩ => show win0_1.index t (2 : Fin 3) * 3 + 1 * d.val = d.val; rw [e2]; omega

theorem accO0_value (c : Dev nD)
    (hA : ∀ i, (V c main_arg0 : S4x8192x3.Idx → EReal) i = (((((V c main_arg0 : S4x8192x3.Idx → EReal)) i).toReal : ℝ) : EReal))
    (hB : ∀ i, (V c main_arg1 : S4x8192x3.Idx → EReal) i = (((((V c main_arg1 : S4x8192x3.Idx → EReal)) i).toReal : ℝ) : EReal))
    (b : Fin 4) (z : Fin 1) :
    accO0 (F := Ideal) V c 127 (lt_of_lt_of_eq (by omega : 127 < 128) (show cfg0.N = 128 from N_0).symm) (ix2 b z)
      = ((Cert.Spec.dirMean (Cert.Spec.cloud (V c main_arg0 : S4x8192x3.Idx → EReal)) (Cert.Spec.cloud (V c main_arg1 : S4x8192x3.Idx → EReal)) b : ℝ) : EReal) :=
  accO_value (A := (V c main_arg0 : S4x8192x3.Idx → EReal)) (B := (V c main_arg1 : S4x8192x3.Idx → EReal)) (q := qs0 V c) (k := ks0 V c)
    (fun n hn => qblk0_apply V c ⟨n, hn⟩) (fun n hn => kblk0_apply V c ⟨n, hn⟩) hA hB b z

end

end Cert.KernelIdeal.Fr

end
-- ==== Proof.KI.R1.AccValue.lean ====
import proofs.«158586_j62723702391632_1_alg».proof.Proof.KI.R1.Acc
import proofs.«158586_j62723702391632_1_alg».proof.Proof.KI.R0.AccValue
import proofs.«158586_j62723702391632_1_alg».proof.Proof.KI.Pay
import proofs.«158586_j62723702391632_1_alg».proof.Proof.Alg
import proofs.«158586_j62723702391632_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

section
variable (V : (c : Dev nD) → (b : Ref sig .tc) → Buf (Elt Ideal) ((c : Thread nD τ).loc b))

private theorem qidx1 : ∀ t : Fin cfg1.N, win1_0.index t (0 : Fin 3) = 0 ∧ win1_0.index t (1 : Fin 3) = t.val / 16 ∧ win1_0.index t (2 : Fin 3) = 0 :=
  (by decide +kernel : ∀ t : Fin grid1.N, _)

private theorem kidx1 : ∀ t : Fin cfg1.N, win1_1.index t (0 : Fin 3) = 0 ∧ win1_1.index t (1 : Fin 3) = t.val % 16 ∧ win1_1.index t (2 : Fin 3) = 0 :=
  (by decide +kernel : ∀ t : Fin grid1.N, _)

private theorem qblk1_apply (c : Dev nD) (t : Fin cfg1.N) (b : Fin 4) (r : Fin 1024) (d : Fin 3) (hr : 1024 * (t.val / 16) + r.val < 8192) :
    qblk1 V c t (ix3 b r d) = (V c main_arg1 : S4x8192x3.Idx → EReal) (ix3 b ⟨1024 * (t.val / 16) + r.val, hr⟩ d) := by
  obtain ⟨e0, e1, e2⟩ := qidx1 t
  unfold qblk1 iblk1
  rw [View.read_apply]
  show V c main_arg1 _ = V c main_arg1 _
  congr 1
  funext a
  apply Fin.ext
  match a with
  | ⟨0, _⟩ => show win1_0.index t (0 : Fin 3) * 4 + 1 * b.val = b.val; rw [e0]; omega
  | ⟨1, _⟩ => show win1_0.index t (1 : Fin 3) * 1024 + 1 * r.val = 1024 * (t.val / 16) + r.val; rw [e1]; omega
  | ⟨2, _⟩ => show win1_0.index t (2 : Fin 3) * 3 + 1 * d.val = d.val; rw [e2]; omega

private theorem kblk1_apply (c : Dev nD) (t : Fin cfg1.N) (b : Fin 4) (s : Fin 512) (d : Fin 3) (hs : 512 * (t.val % 16) + s.val < 8192) :
    kblk1 V c t (ix3 b s d) = (V c main_arg0 : S4x8192x3.Idx → EReal) (ix3 b ⟨512 * (t.val % 16) + s.val, hs⟩ d) := by
  obtain ⟨e0, e1, e2⟩ := kidx1 t
  unfold kblk1 iblk1
  rw [View.read_apply]
  show V c main_arg0 _ = V c main_arg0 _
  congr 1
  funext a
  apply Fin.ext
  match a with
  | ⟨0, _⟩ => show win1_1.index t (0 : Fin 3) * 4 + 1 * b.val = b.val; rw [e0]; omega
  | ⟨1, _⟩ => show win1_1.index t (1 : Fin 3) * 512 + 1 * s.val = 512 * (t.val % 16) + s.val; rw [e1]; omega
  | ⟨2, _⟩ => show win1_1.index t (2 : Fin 3) * 3 + 1 * d.val = d.val; rw [e2]; omega

theorem accO1_value (c : Dev nD)
    (hA : ∀ i, (V c main_arg1 : S4x8192x3.Idx → EReal) i = (((((V c main_arg1 : S4x8192x3.Idx → EReal)) i).toReal : ℝ) : EReal))
    (hB : ∀ i, (V c main_arg0 : S4x8192x3.Idx → EReal) i = (((((V c main_arg0 : S4x8192x3.Idx → EReal)) i).toReal : ℝ) : EReal))
    (b : Fin 4) (z : Fin 1) :
    accO1 (F := Ideal) V c 127 (lt_of_lt_of_eq (by omega : 127 < 128) (show cfg1.N = 128 from N_1).symm) (ix2 b z)
      = ((Cert.Spec.dirMean (Cert.Spec.cloud (V c main_arg1 : S4x8192x3.Idx → EReal)) (Cert.Spec.cloud (V c main_arg0 : S4x8192x3.Idx → EReal)) b : ℝ) : EReal) :=
  accO_value (A := (V c main_arg1 : S4x8192x3.Idx → EReal)) (B := (V c main_arg0 : S4x8192x3.Idx → EReal)) (q := qs1 V c) (k := ks1 V c)
    (fun n hn => qblk1_apply V c ⟨n, hn⟩) (fun n hn => kblk1_apply V c ⟨n, hn⟩) hA hB b z

end

end Cert.KernelIdeal.Fr

end
-- ==== Proof.KI.Value.lean ====
import proofs.«158586_j62723702391632_1_alg».proof.Proof.KI.Run
import proofs.«158586_j62723702391632_1_alg».proof.Proof.KI.R0.AccValue
import proofs.«158586_j62723702391632_1_alg».proof.Proof.KI.R1.AccValue
import proofs.«158586_j62723702391632_1_alg».proof.Proof.Alg
import proofs.«158586_j62723702391632_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

section
variable (V : (c : Dev nD) → (b : Ref sig .tc) → Buf (Elt F) ((c : Thread nD τ).loc b))

private theorem last0 : (127 : ℕ) < cfg0.N := lt_of_lt_of_eq (by omega : 127 < 128) (show cfg0.N = 128 from N_0).symm

private theorem out0_offset (t : Fin cfg0.N) : (fun a => win0_2.index t a * main_v0.ty.shape.size a) = fun _ => 0 :=
  funext fun a => by fin_cases a <;> rfl

private theorem flushed0_eq (c : Dev nD) (t : Fin cfg0.N) (hf : (cfg0.win 2).flush t = true) :
    (dat0 V c).flushed 2 t = ((cfg0.win 2).blk t).view.read (Elt F) (accO0 V c 127 last0) := by
  have hN : cfg0.N = 128 := N_0
  have ht : t.val = 127 := by have := (flush0_2 t).mp hf; have := t.isLt; omega
  have hacc : ∀ (n : ℕ) (h : n < cfg0.N), n = 127 → accO0 V c n h = accO0 V c 127 last0 := by
    intro n h e; subst e; rfl
  show (cfg0.win 2).cut (grid0.coords t) ((dat0 V c).after 2 t) = _
  rw [after0_2, hacc t.val t.isLt ht]
  exact (Memref.read_access_unit_zero (Elt F) main_v0 (out0_offset t)
    (fun a => by rw [congrFun (out0_offset t) a]; simp) (accO0 V c 127 last0)).symm

private theorem final0 (c : Dev nD) : (dat0 V c).arrAt 2 cfg0.N = accO0 V c 127 last0 :=
  (dat0 V c).arrAt_eq_of_cover 2 (accO0 V c 127 last0) (flushed0_eq V c) fun i =>
    ⟨⟨127, last0⟩, (flush0_2 ⟨127, last0⟩).mpr rfl, by
      show i ∈ ((View.whole main_v0).slice (win0_2.rect ⟨127, last0⟩)).set
      rw [View.set_slice_whole, Rect.mem_set_unit]
      intro a
      have hlo : win0_2.index ⟨127, last0⟩ a * win0_2.size a = 0 := congrFun (out0_offset ⟨127, last0⟩) a
      have hsz : win0_2.xsize (grid0.coords ⟨127, last0⟩) a = main_v0.ty.shape.size a := by fin_cases a <;> rfl
      rw [hlo, hsz, Nat.zero_add]
      exact ⟨Nat.zero_le _, (i a).isLt⟩⟩

private theorem last1 : (127 : ℕ) < cfg1.N := lt_of_lt_of_eq (by omega : 127 < 128) (show cfg1.N = 128 from N_1).symm

private theorem out1_offset (t : Fin cfg1.N) : (fun a => win1_2.index t a * main_v1.ty.shape.size a) = fun _ => 0 :=
  funext fun a => by fin_cases a <;> rfl

private theorem flushed1_eq (c : Dev nD) (t : Fin cfg1.N) (hf : (cfg1.win 2).flush t = true) :
    (dat1 V c).flushed 2 t = ((cfg1.win 2).blk t).view.read (Elt F) (accO1 V c 127 last1) := by
  have hN : cfg1.N = 128 := N_1
  have ht : t.val = 127 := by have := (flush1_2 t).mp hf; have := t.isLt; omega
  have hacc : ∀ (n : ℕ) (h : n < cfg1.N), n = 127 → accO1 V c n h = accO1 V c 127 last1 := by
    intro n h e; subst e; rfl
  show (cfg1.win 2).cut (grid1.coords t) ((dat1 V c).after 2 t) = _
  rw [after1_2, hacc t.val t.isLt ht]
  exact (Memref.read_access_unit_zero (Elt F) main_v1 (out1_offset t)
    (fun a => by rw [congrFun (out1_offset t) a]; simp) (accO1 V c 127 last1)).symm

private theorem final1 (c : Dev nD) : (dat1 V c).arrAt 2 cfg1.N = accO1 V c 127 last1 :=
  (dat1 V c).arrAt_eq_of_cover 2 (accO1 V c 127 last1) (flushed1_eq V c) fun i =>
    ⟨⟨127, last1⟩, (flush1_2 ⟨127, last1⟩).mpr rfl, by
      show i ∈ ((View.whole main_v1).slice (win1_2.rect ⟨127, last1⟩)).set
      rw [View.set_slice_whole, Rect.mem_set_unit]
      intro a
      have hlo : win1_2.index ⟨127, last1⟩ a * win1_2.size a = 0 := congrFun (out1_offset ⟨127, last1⟩) a
      have hsz : win1_2.xsize (grid1.coords ⟨127, last1⟩) a = main_v1.ty.shape.size a := by fin_cases a <;> rfl
      rw [hlo, hsz, Nat.zero_add]
      exact ⟨Nat.zero_le _, (i a).isLt⟩⟩

end

private theorem ofBits_four_f32 : Ideal.ofBits .f32 0x40800000#32 = ((4 : ℝ) : EReal) := by
  simp [Ideal.ofBits, Ideal.ieee, -EReal.coe_mul]; norm_num

private theorem sum_idx1 {n : ℕ} (f : (⟨1, ![n]⟩ : Shape).Idx → EReal) : ∑ j, f j = ∑ b : Fin n, f (ix1 b) :=
  Fintype.sum_equiv ⟨fun j => j 0, ix1, fun j => (eq_ix1 j).symm, fun _ => rfl⟩ f (fun b => f (ix1 b))
    fun j => congrArg f (eq_ix1 j)

private theorem reduce4 (v : (⟨S4, .f32⟩ : BufTy).Contents (Elt Ideal)) (i : S_.Idx) :
    Host.reduceAdd v (constant (F := Ideal) S_ .f32 0x00000000#32) reducesTo_S4_S_d0 h_S_ i = ∑ b : Fin 4, v (ix1 b) := by
  simp only [Host.reduceAdd, Ideal.hostReduceAdd_def]
  refine (Ideal.hostReduceAdd_total reducesTo_S4_S_d0 (fun b => b.elim0) v _ i).trans ?_
  rw [constant_apply, Ideal.ofBits_zero_f32, zero_add]
  exact sum_idx1 v

private theorem drop_unit (u : (⟨S4x1, .f32⟩ : BufTy).Contents (Elt Ideal)) (b : Fin 4) :
    shapeCast S4 u shapeCasts_S4x1_S4 (ix1 b) = u (ix2 b 0) :=
  shapeCast_apply u shapeCasts_S4x1_S4 (ix1 b) (ix2 b 0) (by
    rw [Shape.rowMajor_val_two, Shape.rowMajor_val_one]
    show b.val * 1 + 0 = b.val
    omega)

private theorem host_value (x y : (⟨S4x1, .f32⟩ : BufTy).Contents (Elt Ideal)) (f g : Fin 4 → ℝ)
    (hx : ∀ b : Fin 4, x (ix2 b 0) = ((f b : ℝ) : EReal)) (hy : ∀ b : Fin 4, y (ix2 b 0) = ((g b : ℝ) : EReal)) (i : S_.Idx) :
    (Host.divf (Host.reduceAdd (shapeCast S4 (addf x y) shapeCasts_S4x1_S4) (constant (F := Ideal) S_ .f32 0x00000000#32) reducesTo_S4_S_d0 h_S_)
      (constant (F := Ideal) S_ .f32 0x40800000#32) : (⟨S_, .f32⟩ : BufTy).Contents (Elt Ideal)) i
      = (((∑ b : Fin 4, (f b + g b)) / 4 : ℝ) : EReal) := by
  show FloatOps.hostDivf (Host.reduceAdd (shapeCast S4 (addf x y) shapeCasts_S4x1_S4) (constant (F := Ideal) S_ .f32 0x00000000#32) reducesTo_S4_S_d0 h_S_ i)
    (constant (F := Ideal) S_ .f32 0x40800000#32 i) = _
  have hsum : Host.reduceAdd (shapeCast S4 (addf x y) shapeCasts_S4x1_S4) (constant (F := Ideal) S_ .f32 0x00000000#32) reducesTo_S4_S_d0 h_S_ i
      = ((∑ b : Fin 4, (f b + g b) : ℝ) : EReal) := by
    rw [reduce4, ← Cert.Alg.sum_coe]
    refine Finset.sum_congr rfl fun b _ => ?_
    rw [drop_unit, addf_apply, hx, hy, EReal.coe_add]
  rw [Ideal.hostDivf_def, hsum, constant_apply, ofBits_four_f32, Ideal.div_coe (by norm_num : (4 : ℝ) ≠ 0), ← EReal.coe_mul, mul_one_div]

theorem W3_value (m : (ℓ : Loc nD τ sig) → Buf (Elt Ideal) ℓ) (c : Dev nD)
    (hA : ∀ i, (m ((c : Thread nD τ).loc main_arg0) : S4x8192x3.Idx → EReal) i = ((((m ((c : Thread nD τ).loc main_arg0) : S4x8192x3.Idx → EReal) i).toReal : ℝ) : EReal))
    (hB : ∀ i, (m ((c : Thread nD τ).loc main_arg1) : S4x8192x3.Idx → EReal) i = ((((m ((c : Thread nD τ).loc main_arg1) : S4x8192x3.Idx → EReal) i).toReal : ℝ) : EReal)) :
    (W3 (F := Ideal) m c (Proc.devRef .tc main_v5) : S_.Idx → EReal)
      = fun _ => ((Cert.Spec.chamfer (Cert.Spec.cloud (m ((c : Thread nD τ).loc main_arg0) : S4x8192x3.Idx → EReal))
          (Cert.Spec.cloud (m ((c : Thread nD τ).loc main_arg1) : S4x8192x3.Idx → EReal)) : ℝ) : EReal) := by

  have e0 : W2 m c (Proc.devRef .tc main_v0) = accO0 (V0 m) c 127 last0 :=
    (W2_of_ne m c main_v0 (by decide)).trans ((W1_arr m c 2).trans (final0 (V0 m) c))
  have e1 : W2 m c (Proc.devRef .tc main_v1) = accO1 (V1 m) c 127 last1 :=
    (W2_arr m c 2).trans (final1 (V1 m) c)

  have a0 : V1 m c main_arg0 = m ((c : Thread nD τ).loc main_arg0) :=
    (W1_arr m c 0).trans (((dat0 (V0 m) c).arrAt_in 0 rfl _).trans (A_eq0 (V0 m) c 0))
  have a1 : V1 m c main_arg1 = m ((c : Thread nD τ).loc main_arg1) :=
    (W1_arr m c 1).trans (((dat0 (V0 m) c).arrAt_in 1 rfl _).trans (A_eq0 (V0 m) c 1))
  have hA1 : ∀ i, (V1 m c main_arg0 : S4x8192x3.Idx → EReal) i = ((((V1 m c main_arg0 : S4x8192x3.Idx → EReal) i).toReal : ℝ) : EReal) := by
    rw [a0]; exact hA
  have hB1 : ∀ i, (V1 m c main_arg1 : S4x8192x3.Idx → EReal) i = ((((V1 m c main_arg1 : S4x8192x3.Idx → EReal) i).toReal : ℝ) : EReal) := by
    rw [a1]; exact hB

  have hx : ∀ b : Fin 4, (W2 m c (Proc.devRef .tc main_v0) : S4x1.Idx → EReal) (ix2 b 0)
      = ((Cert.Spec.dirMean (Cert.Spec.cloud (m ((c : Thread nD τ).loc main_arg0) : S4x8192x3.Idx → EReal))
          (Cert.Spec.cloud (m ((c : Thread nD τ).loc main_arg1) : S4x8192x3.Idx → EReal)) b : ℝ) : EReal) := fun b => by
    rw [e0]; exact accO0_value (V0 m) c hA hB b 0
  have hy : ∀ b : Fin 4, (W2 m c (Proc.devRef .tc main_v1) : S4x1.Idx → EReal) (ix2 b 0)
      = ((Cert.Spec.dirMean (Cert.Spec.cloud (m ((c : Thread nD τ).loc main_arg1) : S4x8192x3.Idx → EReal))
          (Cert.Spec.cloud (m ((c : Thread nD τ).loc main_arg0) : S4x8192x3.Idx → EReal)) b : ℝ) : EReal) := fun b => by
    rw [e1, accO1_value (V1 m) c hB1 hA1 b 0, a0, a1]
  show StableHlo.after hostOps2 (W2 m c) (Proc.devRef .tc main_v5) = _
  after_results
  funext i
  exact host_value (W2 m c (Proc.devRef .tc main_v0)) (W2 m c (Proc.devRef .tc main_v1)) _ _ hx hy i

end Cert.KernelIdeal.Fr

end
-- ==== Proof.Ref.Base.lean ====
import proofs.«158586_j62723702391632_1_alg».proof.Proof.Gen.ReferenceIdeal.Run
import proofs.«158586_j62723702391632_1_alg».proof.Proof.Gen.ReferenceIdeal.Read
-- ==== Proof.Ref.Value.lean ====
import proofs.«158586_j62723702391632_1_alg».proof.Proof.Ref.Base
import proofs.«158586_j62723702391632_1_alg».proof.Proof.Spec
import proofs.«158586_j62723702391632_1_alg».proof.Proof.Alg
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.RefValue

open Idealize.ShloMosaic Idealize.ShloMosaic.ValueIdx Cert.ReferenceIdeal Cert.ReferenceIdeal.Gen Cert.ReferenceIdeal.Read

private theorem ofBits_two : Ideal.ofBits .f32 0x40000000#32 = ((2 : ℝ) : EReal) := by
  simp [Ideal.ofBits, Ideal.ieee, -EReal.coe_mul]; norm_num

private theorem ofBits_8192 : Ideal.ofBits .f32 0x46000000#32 = ((8192 : ℝ) : EReal) := by
  simp [Ideal.ofBits, Ideal.ieee, -EReal.coe_mul]; norm_num

private theorem ofBits_four : Ideal.ofBits .f32 0x40800000#32 = ((4 : ℝ) : EReal) := by
  simp [Ideal.ofBits, Ideal.ieee, -EReal.coe_mul]; norm_num

private theorem ofBits_top : Ideal.ofBits .f32 0x7F800000#32 = (⊤ : EReal) := by
  simp [Ideal.ofBits, Ideal.ieee]

section Stages
variable (P Q : (⟨S4x8192x3, .f32⟩ : BufTy).Contents (Elt Ideal))

private theorem entry_eq (hP : ∀ i, P i = (((P i).toReal : ℝ) : EReal)) (b : Fin 4) (n : Fin 8192) (d : Fin 3) :
    P (ix3 b n d) = ((Cert.Spec.cloud P b n d : ℝ) : EReal) := hP _

private theorem v7_at (hP : ∀ i, P i = (((P i).toReal : ℝ) : EReal)) (b : Fin 4) (n m : Fin 8192) :
    val_main_v7 (F := Ideal) P (ix3 b n m) = ((∑ d : Fin 3, Cert.Spec.cloud P b n d * Cert.Spec.cloud P b n d : ℝ) : EReal) := by
  rw [val_main_v7_apply, val_main_v5_apply, val_main_v1_apply, val_main_cst_apply]
  have e : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  simp only [val_main_v0_apply, e, entry_eq P hP, Ideal.ofBits_def, Ideal.ofBits_zero_f32, Ideal.mulf_def, zero_add,
    ← EReal.coe_mul, Cert.Alg.sum_coe]

private theorem v8_at (hQ : ∀ i, Q i = (((Q i).toReal : ℝ) : EReal)) (b : Fin 4) (n m : Fin 8192) :
    val_main_v8 (F := Ideal) Q (ix3 b n m) = ((∑ d : Fin 3, Cert.Spec.cloud Q b m d * Cert.Spec.cloud Q b m d : ℝ) : EReal) := by
  rw [val_main_v8_apply, val_main_v6_apply, val_main_v3_apply, val_main_cst_0_apply]
  have e : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  simp only [val_main_v2_apply, e, entry_eq Q hQ, Ideal.ofBits_def, Ideal.ofBits_zero_f32, Ideal.mulf_def, zero_add,
    ← EReal.coe_mul, Cert.Alg.sum_coe]

private theorem v11_at (hP : ∀ i, P i = (((P i).toReal : ℝ) : EReal)) (hQ : ∀ i, Q i = (((Q i).toReal : ℝ) : EReal))
    (b : Fin 4) (n m : Fin 8192) :
    val_main_v11 (F := Ideal) P Q (ix3 b n m)
      = ((2 * ∑ d : Fin 3, Cert.Spec.cloud P b n d * Cert.Spec.cloud Q b m d : ℝ) : EReal) := by
  rw [val_main_v11_apply, val_main_v10_apply, val_main_cst_1_apply, val_main_v4_apply]
  have el : ∀ k : Fin 3, lidx_main_v4 (ix3 b n m) k = ix3 b n k := fun k =>
    funext fun a => Fin.ext (by match a with | ⟨0, _⟩ => rfl | ⟨1, _⟩ => rfl | ⟨2, _⟩ => rfl)
  have er : ∀ k : Fin 3, ridx_main_v4 (ix3 b n m) k = ix3 b m k := fun k =>
    funext fun a => Fin.ext (by match a with | ⟨0, _⟩ => rfl | ⟨1, _⟩ => rfl | ⟨2, _⟩ => rfl)
  simp only [el, er, entry_eq P hP, entry_eq Q hQ, Ideal.ofBits_def, ofBits_two, Ideal.mulf_def,
    ← EReal.coe_mul, Cert.Alg.sum_coe]

private theorem v14_at (hP : ∀ i, P i = (((P i).toReal : ℝ) : EReal)) (hQ : ∀ i, Q i = (((Q i).toReal : ℝ) : EReal))
    (b : Fin 4) (n m : Fin 8192) :
    val_main_v14 (F := Ideal) P Q (ix3 b n m)
      = ((Cert.Spec.dist2 (Cert.Spec.cloud P) (Cert.Spec.cloud Q) b n m : ℝ) : EReal) := by
  rw [val_main_v14_apply, val_main_v12_apply, val_main_v9_apply, val_main_v13_apply, val_main_cst_2_apply,
    v7_at P hP, v8_at Q hQ, v11_at P Q hP hQ]
  simp only [Ideal.ofBits_def, Ideal.ofBits_zero_f32, Ideal.addf_def, Ideal.subf_def, Ideal.maximumf_def]
  rw [← EReal.coe_add, ← EReal.coe_sub, ← EReal.coe_zero, ← EReal.coe_strictMono.monotone.map_max]
  unfold Cert.Spec.dist2
  exact congrArg _ (Cert.Alg.max_sq_expand (Cert.Spec.cloud P b n) (Cert.Spec.cloud Q b m))

end Stages

section Stages2
variable (P Q : (⟨S4x8192x3, .f32⟩ : BufTy).Contents (Elt Ideal))

private theorem v15_at (hP : ∀ i, P i = (((P i).toReal : ℝ) : EReal)) (hQ : ∀ i, Q i = (((Q i).toReal : ℝ) : EReal))
    (b : Fin 4) (n : Fin 8192) :
    val_main_v15 (F := Ideal) P Q (ix2 b n)
      = ((Cert.Spec.nearest (Cert.Spec.cloud P) (Cert.Spec.cloud Q) b n : ℝ) : EReal) := by
  have h : S4x8192x8192.Reduces [2] S4x8192 := by decide
  unfold val_main_v15
  rw [Host.reduce_eq_fold_single FloatOps.minimumf _ _ reducesTo_S4x8192x8192_S4x8192_d2 h h_S_]
  have hf : (val_main_v14 (F := Ideal) P Q ∘ h.lift (ix2 b n))
      = fun k : Fin 8192 => ((Cert.Spec.dist2 (Cert.Spec.cloud P) (Cert.Spec.cloud Q) b n k : ℝ) : EReal) := by
    refine funext fun (k : Fin 8192) => ?_
    have e : h.lift (ix2 b n) k = ix3 b n k :=
      funext fun a => Fin.ext (by match a with | ⟨0, _⟩ => rfl | ⟨1, _⟩ => rfl | ⟨2, _⟩ => rfl)
    show val_main_v14 (F := Ideal) P Q (h.lift (ix2 b n) k) = _
    rw [e, v14_at P Q hP hQ]
  rw [hf, val_main_cst_3_apply, Ideal.ofBits_def, ofBits_top]
  exact Cert.Alg.fold_min_top_coe ⟨(0 : Fin 8192), Finset.mem_univ _⟩ _

private theorem v19_at (hP : ∀ i, P i = (((P i).toReal : ℝ) : EReal)) (hQ : ∀ i, Q i = (((Q i).toReal : ℝ) : EReal))
    (b : Fin 4) (m : Fin 8192) :
    val_main_v19 (F := Ideal) P Q (ix2 b m)
      = ((Cert.Spec.nearest (Cert.Spec.cloud Q) (Cert.Spec.cloud P) b m : ℝ) : EReal) := by
  have h : S4x8192x8192.Reduces [1] S4x8192 := by decide
  unfold val_main_v19
  rw [Host.reduce_eq_fold_single FloatOps.minimumf _ _ reducesTo_S4x8192x8192_S4x8192_d1 h h_S_]
  have hf : (val_main_v14 (F := Ideal) P Q ∘ h.lift (ix2 b m))
      = fun k : Fin 8192 => ((Cert.Spec.dist2 (Cert.Spec.cloud Q) (Cert.Spec.cloud P) b m k : ℝ) : EReal) := by
    refine funext fun (k : Fin 8192) => ?_
    have e : h.lift (ix2 b m) k = ix3 b k m :=
      funext fun a => Fin.ext (by match a with | ⟨0, _⟩ => rfl | ⟨1, _⟩ => rfl | ⟨2, _⟩ => rfl)
    show val_main_v14 (F := Ideal) P Q (h.lift (ix2 b m) k) = _
    rw [e, v14_at P Q hP hQ, Cert.Spec.dist2_symm]
  rw [hf, val_main_cst_6_apply, Ideal.ofBits_def, ofBits_top]
  exact Cert.Alg.fold_min_top_coe ⟨(0 : Fin 8192), Finset.mem_univ _⟩ _

end Stages2

section Stages3
variable (P Q : (⟨S4x8192x3, .f32⟩ : BufTy).Contents (Elt Ideal))

private theorem div_coe_coe (x y : ℝ) (hy : y ≠ 0) : Ideal.div ((x : ℝ) : EReal) ((y : ℝ) : EReal) = ((x / y : ℝ) : EReal) := by
  rw [Ideal.div_coe hy, ← EReal.coe_mul]
  exact congrArg _ (by field_simp)

private theorem v18_at (hP : ∀ i, P i = (((P i).toReal : ℝ) : EReal)) (hQ : ∀ i, Q i = (((Q i).toReal : ℝ) : EReal))
    (b : Fin 4) :
    val_main_v18 (F := Ideal) P Q (ix1 b)
      = ((Cert.Spec.dirMean (Cert.Spec.cloud P) (Cert.Spec.cloud Q) b : ℝ) : EReal) := by
  rw [val_main_v18_apply, val_main_v16_apply, val_main_v17_apply, val_main_cst_4_apply, val_main_cst_5_apply]
  have e : ∀ k : Fin 8192, idx_main_v16 (ix1 b) k = ix2 b k := fun k =>
    funext fun a => Fin.ext (by match a with | ⟨0, _⟩ => rfl | ⟨1, _⟩ => rfl)
  simp only [e, v15_at P Q hP hQ, Ideal.ofBits_def, Ideal.ofBits_zero_f32, ofBits_8192, zero_add, Cert.Alg.sum_coe,
    Ideal.hostDivf_def]
  rw [div_coe_coe _ _ (by norm_num)]
  rfl

private theorem v22_at (hP : ∀ i, P i = (((P i).toReal : ℝ) : EReal)) (hQ : ∀ i, Q i = (((Q i).toReal : ℝ) : EReal))
    (b : Fin 4) :
    val_main_v22 (F := Ideal) P Q (ix1 b)
      = ((Cert.Spec.dirMean (Cert.Spec.cloud Q) (Cert.Spec.cloud P) b : ℝ) : EReal) := by
  rw [val_main_v22_apply, val_main_v20_apply, val_main_v21_apply, val_main_cst_7_apply, val_main_cst_8_apply]
  have e : ∀ k : Fin 8192, idx_main_v20 (ix1 b) k = ix2 b k := fun k =>
    funext fun a => Fin.ext (by match a with | ⟨0, _⟩ => rfl | ⟨1, _⟩ => rfl)
  simp only [e, v19_at P Q hP hQ, Ideal.ofBits_def, Ideal.ofBits_zero_f32, ofBits_8192, zero_add, Cert.Alg.sum_coe,
    Ideal.hostDivf_def]
  rw [div_coe_coe _ _ (by norm_num)]
  rfl

private theorem v23_at (hP : ∀ i, P i = (((P i).toReal : ℝ) : EReal)) (hQ : ∀ i, Q i = (((Q i).toReal : ℝ) : EReal))
    (b : Fin 4) :
    val_main_v23 (F := Ideal) P Q (ix1 b)
      = ((Cert.Spec.dirMean (Cert.Spec.cloud P) (Cert.Spec.cloud Q) b
          + Cert.Spec.dirMean (Cert.Spec.cloud Q) (Cert.Spec.cloud P) b : ℝ) : EReal) := by
  rw [val_main_v23_apply, v18_at P Q hP hQ, v22_at P Q hP hQ, Ideal.addf_def, ← EReal.coe_add]

private def idx1Equiv : S4.Idx ≃ Fin 4 where
  toFun i := i 0
  invFun := ix1
  left_inv i := (eq_ix1 i).symm
  right_inv _ := rfl

end Stages3

theorem ref_value (P Q : (⟨S4x8192x3, .f32⟩ : BufTy).Contents (Elt Ideal))
    (hP : ∀ i, P i = (((P i).toReal : ℝ) : EReal)) (hQ : ∀ i, Q i = (((Q i).toReal : ℝ) : EReal)) :
    val_main_v25 (F := Ideal) P Q = fun _ => ((Cert.Spec.chamfer (Cert.Spec.cloud P) (Cert.Spec.cloud Q) : ℝ) : EReal) := by
  funext i
  rw [val_main_v25_apply, val_main_v24_apply, val_main_cst_9_apply, val_main_cst_10_apply,
    ← Equiv.sum_comp idx1Equiv.symm]
  have e : ∀ b : Fin 4, idx1Equiv.symm b = ix1 b := fun _ => rfl
  simp only [e, v23_at P Q hP hQ, Ideal.ofBits_def, Ideal.ofBits_zero_f32, ofBits_four, zero_add, Cert.Alg.sum_coe,
    Ideal.hostDivf_def]
  rw [div_coe_coe _ _ (by norm_num)]
  rfl

end Cert.RefValue

end
-- ==== Proof.Finite.lean ====
import proofs.«158586_j62723702391632_1_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Finite

open Idealize.ShloMosaic

private instance : Subsingleton Cert.Pre_finite_inputs.S_.Idx := ⟨fun a b => funext fun d => d.elim0⟩

private theorem real_of_abs_lt_top (x : EReal) (h : Ideal.cmp .olt (max x (-x)) ⊤ = 1#1) :
    x = ((x.toReal : ℝ) : EReal) := by
  induction x using EReal.rec with
  | bot => simp [Ideal.cmp] at h
  | top => simp [Ideal.cmp] at h
  | coe r => rfl

private theorem real_of_all {axes : List (Fin Cert.Pre_finite_inputs.S4x8192x3.rank)}
    (P : FVec Ideal Cert.Pre_finite_inputs.S4x8192x3 .f32)
    (hb : Cert.Pre_finite_inputs.S_.BroadcastsInDim Cert.Pre_finite_inputs.S4x8192x3
      (![] : Fin 0 → Fin Cert.Pre_finite_inputs.S4x8192x3.rank))
    (hr : Cert.Pre_finite_inputs.S4x8192x3.ReducesTo axes Cert.Pre_finite_inputs.S_)
    (hn : 0 < Cert.Pre_finite_inputs.S_.numel)
    (h : Host.reduce IntOp.andi
        (cmpf CmpFPredicate.olt (Host.absf P)
          (broadcastInDim Cert.Pre_finite_inputs.S4x8192x3 ![] hb
            (constant (F := Ideal) Cert.Pre_finite_inputs.S_ FTy.f32 0x7F800000#32)))
        (constantI Cert.Pre_finite_inputs.S_ 1 1#1) hr hn ValueIdx.ix0 = 1#1) :
    ∀ i, P i = (((P i).toReal : ℝ) : EReal) := by
  intro i
  have e := Host.reduce_andi_all _ _ hr hn _ h i
  have htop : Ideal.ofBits .f32 0x7F800000#32 = ⊤ := by simp [Ideal.ofBits, Ideal.ieee]
  refine real_of_abs_lt_top (P i) ?_
  rw [← htop]
  exact e

theorem finite_of_pre [Cert.Pre_finite_inputs.Facts] (P Q : FVec Ideal Cert.Pre_finite_inputs.S4x8192x3 .f32)
    (h : Cert.Pre_finite_inputs.fn (F := Ideal) P Q = fun _ => 1#1) :
    (∀ i, P i = (((P i).toReal : ℝ) : EReal)) ∧ (∀ i, Q i = (((Q i).toReal : ℝ) : EReal)) := by
  have h0 := congrFun h ValueIdx.ix0
  unfold Cert.Pre_finite_inputs.fn at h0
  dsimp only at h0
  obtain ⟨hP, hQ⟩ := IntOp.andi_eq_one.1 h0
  exact ⟨real_of_all P _ _ _ hP, real_of_all Q _ _ _ hQ⟩

end Cert.Finite

end
-- ==== Proof.lean ====
import proofs.«158586_j62723702391632_1_alg».proof.Defs
import proofs.«158586_j62723702391632_1_alg».proof.Proof.Gen.Kernel
import proofs.«158586_j62723702391632_1_alg».proof.Proof.Gen.KernelIdeal
import proofs.«158586_j62723702391632_1_alg».proof.Proof.Gen.ReferenceIdeal
import proofs.«158586_j62723702391632_1_alg».proof.Proof.Gen.Pre_finite_inputs
import proofs.«158586_j62723702391632_1_alg».proof.Proof.K.Run
import proofs.«158586_j62723702391632_1_alg».proof.Proof.KI.Run
import proofs.«158586_j62723702391632_1_alg».proof.Proof.KI.Value
import proofs.«158586_j62723702391632_1_alg».proof.Proof.Ref.Value
import proofs.«158586_j62723702391632_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- For real inputs |p|^2 + |q|^2 - 2 p.q is the squared distance, so the reference's clamp at zero is the identity; least and sum split over the tiles; both programs end at one real number. -/
theorem algebraic : Cert.algebraic_KernelIdeal_ReferenceIdeal := by
  intro m ρ m' ρ' hpre hagree
  have hfin := fun c : Dev Cert.KernelIdeal.nD => Cert.Finite.finite_of_pre _ _ (hpre c)
  refine ⟨fun c => Cert.KernelIdeal.Fr.W3 (F := Ideal) m c (Proc.devRef .tc Cert.KernelIdeal.main_v5), ?_, ?_⟩
  · exact (θ_run Cert.KernelIdeal.defs _ _).mono (fun _ h c =>
      ⟨h c _ (Cert.KernelIdeal.Fr.mem_uc Cert.KernelIdeal.main_v5 (by decide)),
       (h c _ (Cert.KernelIdeal.Fr.mem_uc Cert.KernelIdeal.main_arg0 (by decide))).trans (Cert.KernelIdeal.Fr.W3_main_arg0 m c),
       (h c _ (Cert.KernelIdeal.Fr.mem_uc Cert.KernelIdeal.main_arg1 (by decide))).trans (Cert.KernelIdeal.Fr.W3_main_arg1 m c)⟩)
      (Cert.KernelIdeal.Fr.run_all (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v25_eq _ _).trans ?_
    rw [(hagree c).1, (hagree c).2]
    exact (Cert.RefValue.ref_value _ _ (hfin c).1 (hfin c).2).trans
      (Cert.KernelIdeal.Fr.W3_value m c (hfin c).1 (hfin c).2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
